-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1x1x2048x64 : Shape := ⟨4, ![1, 1, 2048, 64]⟩
abbrev S4x2048 : Shape := ⟨2, ![4, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1x1x2048x64 : S_.BroadcastsInDim S1x1x2048x64 (![] : Fin 0 → Fin S1x1x2048x64.rank)
  reducesTo_S1x1x2048x64_S_d0_1_2_3 : S1x1x2048x64.ReducesTo [0, 1, 2, 3] S_
  bcast_S_S4x2048 : S_.BroadcastsInDim S4x2048 (![] : Fin 0 → Fin S4x2048.rank)
  reducesTo_S4x2048_S_d0_1 : S4x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x2048x1024 .f32) (main_arg1 : FVec F S1x1x2048x64 .f32) (main_arg2 : FVec F S1x1x2048x64 .f32) (main_arg3 : FVec F S4x2048 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1x1x2048x64 .f32 := Host.absf main_arg1
  let main_cst_0 : FVec F S_ .f32 := constant S_ .f32 0x7F800000#32
  let main_v5 : FVec F S1x1x2048x64 .f32 := broadcastInDim S1x1x2048x64 ![] bcast_S_S1x1x2048x64 main_cst_0
  let main_v6 : IVec S1x1x2048x64 1 := cmpf .olt main_v4 main_v5
  let main_c_1 : IVec S_ 1 := constantI S_ 1 1#1
  let main_v7 : IVec S_ 1 := (fun x v => Host.reduce IntOp.andi x v reducesTo_S1x1x2048x64_S_d0_1_2_3 h_S_) main_v6 main_c_1
  let main_v8 : IVec S_ 1 := andi main_v3 main_v7
  let main_v9 : FVec F S1x1x2048x64 .f32 := Host.absf main_arg2
  let main_cst_2 : FVec F S_ .f32 := constant S_ .f32 0x7F800000#32
  let main_v10 : FVec F S1x1x2048x64 .f32 := broadcastInDim S1x1x2048x64 ![] bcast_S_S1x1x2048x64 main_cst_2
  let main_v11 : IVec S1x1x2048x64 1 := cmpf .olt main_v9 main_v10
  let main_c_3 : IVec S_ 1 := constantI S_ 1 1#1
  let main_v12 : IVec S_ 1 := (fun x v => Host.reduce IntOp.andi x v reducesTo_S1x1x2048x64_S_d0_1_2_3 h_S_) main_v11 main_c_3
  let main_v13 : IVec S_ 1 := andi main_v8 main_v12
  let main_v14 : FVec F S4x2048 .f32 := Host.absf main_arg3
  let main_cst_4 : FVec F S_ .f32 := constant S_ .f32 0x7F800000#32
  let main_v15 : FVec F S4x2048 .f32 := broadcastInDim S4x2048 ![] bcast_S_S4x2048 main_cst_4
  let main_v16 : IVec S4x2048 1 := cmpf .olt main_v14 main_v15
  fn_part1 (F := F) main_arg4 main_arg5 main_arg6 main_arg7 main_arg8 main_arg9 main_arg10 main_arg11 main_v13 main_v16
-- ==== Kernel.lean ====
abbrev S4x2048x1024 : Shape := ⟨3, ![4, 2048, 1024]⟩
abbrev S1x1x2048x64 : Shape := ⟨4, ![1, 1, 2048, 64]⟩
abbrev S4x2048 : Shape := ⟨2, ![4, 2048]⟩
abbrev S1024x1024 : Shape := ⟨2, ![1024, 1024]⟩
abbrev S1024 : Shape := ⟨1, ![1024]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S8192x1024 : Shape := ⟨2, ![8192, 1024]⟩
abbrev S512x1024 : Shape := ⟨2, ![512, 1024]⟩
abbrev S512x3072 : Shape := ⟨2, ![512, 3072]⟩
abbrev S4x2048x16x64 : Shape := ⟨4, ![4, 2048, 16, 64]⟩
abbrev S4x16x2048x64 : Shape := ⟨4, ![4, 16, 2048, 64]⟩
abbrev S2048x64 : Shape := ⟨2, ![2048, 64]⟩
abbrev S_ : Shape := ⟨0, ![]⟩
abbrev S4x1x2048 : Shape := ⟨3, ![4, 1, 2048]⟩
abbrev S1x1x1024x64 : Shape := ⟨4, ![1, 1, 1024, 64]⟩
abbrev S1024x64 : Shape := ⟨2, ![1024, 64]⟩
abbrev S1x1x1024 : Shape := ⟨3, ![1, 1, 1024]⟩
abbrev S1024x1 : Shape := ⟨2, ![1024, 1]⟩
abbrev S64x1024 : Shape := ⟨2, ![64, 1024]⟩
abbrev S1x1024 : Shape := ⟨2, ![1, 1024]⟩

abbrev nBuf : Space → Nat
  | .hbm => 44
  | .vmem => 37
  | .smem => 0
  | _ => 0

abbrev bufTy : (tb : Table) → Fin (tcTables nBuf tb) → BufTy
  | .hbm, ⟨0, _⟩ => ⟨S4x2048x1024, .f32⟩
  | .hbm, ⟨1, _⟩ => ⟨S1x1x2048x64, .f32⟩
  | .hbm, ⟨2, _⟩ => ⟨S1x1x2048x64, .f32⟩
  | .hbm, ⟨3, _⟩ => ⟨S4x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S3072x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S8192x1024, .f32⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S4x2048x16x64, .bf16⟩
  | .hbm, ⟨22, _⟩ => ⟨S4x16x2048x64, .bf16⟩
  | .hbm, ⟨23, _⟩ => ⟨S4x2048x16x64, .bf16⟩
  | .hbm, ⟨24, _⟩ => ⟨S4x16x2048x64, .bf16⟩
  | .hbm, ⟨25, _⟩ => ⟨S4x2048x16x64, .bf16⟩
  | .hbm, ⟨26, _⟩ => ⟨S4x16x2048x64, .bf16⟩
  | .hbm, ⟨27, _⟩ => ⟨S2048x64, .f32⟩
  | .hbm, ⟨28, _⟩ => ⟨S2048x64, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x1x2048, .f32⟩
  | .hbm, ⟨36, _⟩ => ⟨S4x16x2048x64, .bf16⟩
  | .hbm, ⟨37, _⟩ => ⟨S4x2048x16x64, .bf16⟩
  | .hbm, ⟨38, _⟩ => ⟨S8192x1024, .bf16⟩
  | .hbm, ⟨39, _⟩ => ⟨S1024x1024, .f32⟩
  | .hbm, ⟨40, _⟩ => ⟨S1024x1024, .bf16⟩
  | .hbm, ⟨41, _⟩ => ⟨S1x1024, .f32⟩
  | .hbm, ⟨42, _⟩ => ⟨S8192x1024, .f32⟩
  | .hbm, ⟨43, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1x1024x64, .bf16⟩
  | .local _ .vmem, ⟨11, _⟩ => ⟨S1x1x1024x64, .bf16⟩
  | .local _ .vmem, ⟨12, _⟩ => ⟨S1x1x1024x64, .bf16⟩
  | .local _ .vmem, ⟨13, _⟩ => ⟨S1x1x1024x64, .bf16⟩
  | .local _ .vmem, ⟨14, _⟩ => ⟨S1x1x1024x64, .bf16⟩
  | .local _ .vmem, ⟨15, _⟩ => ⟨S1x1x1024x64, .bf16⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S1024x64, .f32⟩
  | .local _ .vmem, ⟨23, _⟩ => ⟨S1024x64, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024x64, .bf16⟩
  | .local _ .vmem, ⟨27, _⟩ => ⟨S1x1x1024x64, .bf16⟩
  | .local _ .vmem, ⟨28, _⟩ => ⟨S1024x1, .f32⟩
  | .local _ .vmem, ⟨29, _⟩ => ⟨S1024x1, .f32⟩
  | .local _ .vmem, ⟨30, _⟩ => ⟨S1024x64, .f32⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1x1024, .f32⟩
  | .local _ .vmem, ⟨35, _⟩ => ⟨S1024x1024, .f32⟩
  | .local _ .vmem, ⟨36, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc2_stg0_0 : Ref sig .tc := ⟨.vmem, 31, rfl⟩
abbrev cc2_stg0_1 : Ref sig .tc := ⟨.vmem, 32, rfl⟩
abbrev cc2_stg1_0 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg3_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem3_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨4, ![4, 16, 2, 2], ![false, false, false, false]⟩

def k1_cond2 (i : grid1.Coords) : BitVec 1 :=
  let arg3 : BitVec 32 := BitVec.ofNat 32 (i 3).val
  let c1_i32 : BitVec 32 := 1#32
  let v82 : BitVec 1 := Scalar.cmpi .eq arg3 c1_i32
  let v83 : BitVec 32 := Scalar.extui v82
  let c0_i32_48 : BitVec 32 := 0#32
  let v84 : BitVec 1 := Scalar.cmpi .ne v83 c0_i32_48
  v84

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg3.toNat]

def cc1_transform_8 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, false]

abbrev stage1_1 : Fin 2 → Memref sig .tc .vmem S1x1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false, true]

abbrev stage1_2 : Fin 2 → Memref sig .tc .vmem S1x1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false, true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true, false]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true, false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, false, false, true]

abbrev stage1_6 : Fin 2 → Memref sig .tc .vmem S1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, false, false, true]

abbrev stage1_7 : Fin 2 → Memref sig .tc .vmem S1x1x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false, true]

abbrev stage1_8 : Fin 2 → Memref sig .tc .vmem S1x1x1024x64 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x16x64 : S8192x1024.ShapeCasts S4x2048x16x64
  transposes_S4x2048x16x64_S4x16x2048x64_0_2_1_3 : S4x2048x16x64.Transposes [0, 2, 1, 3] S4x16x2048x64
  shapeCasts_S1x1x2048x64_S2048x64 : S1x1x2048x64.ShapeCasts S2048x64
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  iota_S1024x64_d1_w32 : S1024x64.Iotas .tc 32 [1]
  rotates_S1024x64_d1 : S1024x64.Rotates 1 none
  transposes_S1024x64_p1_0_S64x1024 : S1024x64.Transposes [1, 0] S64x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  transposes_S4x16x2048x64_S4x2048x16x64_0_2_1_3 : S4x16x2048x64.Transposes [0, 2, 1, 3] S4x2048x16x64
  shapeCasts_S4x2048x16x64_S8192x1024 : S4x2048x16x64.ShapeCasts S8192x1024
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S4x16x2048x64.size a
  hwx1_0 : ∀ i : grid1.Coords, EltTy.bits .bf16 = 32 ∨ (Rect.block (s := S4x16x2048x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x64.size a ≤ S4x16x2048x64.size a
  hwx1_1 : ∀ i : grid1.Coords, EltTy.bits .bf16 = 32 ∨ (Rect.block (s := S4x16x2048x64) S1x1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024x64.size a ≤ S4x16x2048x64.size a
  hwx1_2 : ∀ i : grid1.Coords, EltTy.bits .bf16 = 32 ∨ (Rect.block (s := S4x16x2048x64) S1x1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S2048x64.size a
  hwx1_3 : ∀ i : grid1.Coords, EltTy.bits .f32 = 32 ∨ (Rect.block (s := S2048x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S2048x64.size a
  hwx1_4 : ∀ i : grid1.Coords, EltTy.bits .f32 = 32 ∨ (Rect.block (s := S2048x64) S1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S2048x64.size a
  hwx1_5 : ∀ i : grid1.Coords, EltTy.bits .f32 = 32 ∨ (Rect.block (s := S2048x64) S1024x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x64.size a ≤ S2048x64.size a
  hwx1_6 : ∀ i : grid1.Coords, EltTy.bits .f32 = 32 ∨ (Rect.block (s := S2048x64) S1024x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x1024.size a ≤ S4x1x2048.size a
  hwx1_7 : ∀ i : grid1.Coords, EltTy.bits .f32 = 32 ∨ (Rect.block (s := S4x1x2048) S1x1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x1024x64.size a ≤ S4x16x2048x64.size a
  hwx1_8 : ∀ i : grid1.Coords, EltTy.bits .bf16 = 32 ∨ (Rect.block (s := S4x16x2048x64) S1x1x1024x64.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1024x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1024x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1024x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x1x1024.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v20) S1x1x1024x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v22) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1x1x2048x64 : Shape := ⟨4, ![1, 1, 2048, 64]⟩
abbrev S4x2048 : Shape := ⟨2, ![4, 2048]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x32 : Shape := ⟨4, ![4, 16, 2048, 32]⟩
abbrev S_ : Shape := ⟨0, ![]⟩
abbrev S4x1x1x2048 : Shape := ⟨4, ![4, 1, 1, 2048]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1x2048x64, .f32⟩
  | .hbm, ⟨2, _⟩ => ⟨S1x1x2048x64, .f32⟩
  | .hbm, ⟨3, _⟩ => ⟨S4x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S4x2048x16x64, .f32⟩
  | .hbm, ⟨17, _⟩ => ⟨S4x16x2048x64, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x16x64, .f32⟩
  | .hbm, ⟨23, _⟩ => ⟨S4x16x2048x64, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x16x64, .f32⟩
  | .hbm, ⟨29, _⟩ => ⟨S4x16x2048x64, .f32⟩
  | .hbm, ⟨30, _⟩ => ⟨S4x16x2048x64, .f32⟩
  | .hbm, ⟨31, _⟩ => ⟨S4x16x2048x64, .f32⟩
  | .hbm, ⟨32, _⟩ => ⟨S4x16x2048x32, .f32⟩
  | .hbm, ⟨33, _⟩ => ⟨S4x16x2048x32, .f32⟩
  | .hbm, ⟨34, _⟩ => ⟨S4x16x2048x32, .f32⟩
  | .hbm, ⟨35, _⟩ => ⟨S4x16x2048x64, .f32⟩
  | .hbm, ⟨36, _⟩ => ⟨S4x16x2048x64, .f32⟩
  | .hbm, ⟨37, _⟩ => ⟨S4x16x2048x64, .f32⟩
  | .hbm, ⟨38, _⟩ => ⟨S4x16x2048x64, .f32⟩
  | .hbm, ⟨39, _⟩ => ⟨S4x16x2048x64, .f32⟩
  | .hbm, ⟨40, _⟩ => ⟨S4x16x2048x64, .f32⟩
  | .hbm, ⟨41, _⟩ => ⟨S4x16x2048x32, .f32⟩
  | .hbm, ⟨42, _⟩ => ⟨S4x16x2048x32, .f32⟩
  | .hbm, ⟨43, _⟩ => ⟨S4x16x2048x32, .f32⟩
  | .hbm, ⟨44, _⟩ => ⟨S4x16x2048x64, .f32⟩
  | .hbm, ⟨45, _⟩ => ⟨S4x16x2048x64, .f32⟩
  | .hbm, ⟨46, _⟩ => ⟨S4x16x2048x64, .f32⟩
  | .hbm, ⟨47, _⟩ => ⟨S4x16x2048x64, .f32⟩
  | .hbm, ⟨48, _⟩ => ⟨S_, .f32⟩
  | .hbm, ⟨49, _⟩ => ⟨S4x2048, .f32⟩
  | .hbm, ⟨50, _⟩ => ⟨S4x2048, .f32⟩
  | .hbm, ⟨51, _⟩ => ⟨S4x1x1x2048, .f32⟩
  | .hbm, ⟨52, _⟩ => ⟨S_, .f32⟩
  | .hbm, ⟨53, _⟩ => ⟨S4x1x1x2048, .f32⟩
  | .hbm, ⟨54, _⟩ => ⟨S4x1x1x2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4x16x2048x2048, .f32⟩
  | .hbm, ⟨60, _⟩ => ⟨S4x16x2048x2048, .f32⟩
  | .hbm, ⟨61, _⟩ => ⟨S4x16x2048x2048, .f32⟩
  | .hbm, ⟨62, _⟩ => ⟨S4x16x2048x2048, .f32⟩
  | .hbm, ⟨63, _⟩ => ⟨S4x16x2048x2048, .f32⟩
  | .hbm, ⟨64, _⟩ => ⟨S_, .f32⟩
  | .hbm, ⟨65, _⟩ => ⟨S4x16x2048, .f32⟩
  | .hbm, ⟨66, _⟩ => ⟨S_, .f32⟩
  | .hbm, ⟨67, _⟩ => ⟨S4x16x2048, .f32⟩
  | .hbm, ⟨68, _⟩ => ⟨S4x16x2048, .f32⟩
  | .hbm, ⟨69, _⟩ => ⟨S4x16x2048x1, .f32⟩
  | .hbm, ⟨70, _⟩ => ⟨S4x16x2048x2048, .f32⟩
  | .hbm, ⟨71, _⟩ => ⟨S4x16x2048x2048, .f32⟩
  | .hbm, ⟨72, _⟩ => ⟨S4x16x2048x2048, .f32⟩
  | .hbm, ⟨73, _⟩ => ⟨S_, .f32⟩
  | .hbm, ⟨74, _⟩ => ⟨S4x16x2048, .f32⟩
  | .hbm, ⟨75, _⟩ => ⟨S4x16x2048x1, .f32⟩
  | .hbm, ⟨76, _⟩ => ⟨S4x16x2048x2048, .f32⟩
  | .hbm, ⟨77, _⟩ => ⟨S4x16x2048x2048, .f32⟩
  | .hbm, ⟨78, _⟩ => ⟨S4x16x2048x64, .f32⟩
  | .hbm, ⟨79, _⟩ => ⟨S4x2048x16x64, .f32⟩
  | .hbm, ⟨80, _⟩ => ⟨S4x2048x1024, .f32⟩
  | .hbm, ⟨81, _⟩ => ⟨S4x2048x1024, .f32⟩
  | .hbm, ⟨82, _⟩ => ⟨S1x1x1024, .f32⟩
  | .hbm, ⟨83, _⟩ => ⟨S4x2048x1024, .f32⟩
  | .hbm, ⟨84, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_0 : Ref sig .tc := ⟨.hbm, 52, rfl⟩
abbrev main_v39 : Ref sig .tc := ⟨.hbm, 53, rfl⟩
abbrev main_v40 : Ref sig .tc := ⟨.hbm, 54, rfl⟩
abbrev main_cst_1 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_3 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_5 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S1x1x2048x64_S4x16x2048x64_0_1_2_3 : S1x1x2048x64.BroadcastsInDim S4x16x2048x64 (![0, 1, 2, 3] : Fin 4 → Fin S4x16x2048x64.rank)
  slices_S4x16x2048x64_S4x16x2048x32_0_0_0_0 : S4x16x2048x64.Slices ![0, 0, 0, 0] S4x16x2048x32
  slices_S4x16x2048x64_S4x16x2048x32_0_0_0_32 : S4x16x2048x64.Slices ![0, 0, 0, 32] S4x16x2048x32
  concatenates_S4x16x2048x32_S4x16x2048x32_S4x16x2048x64_d3 : Shape.Concatenates [S4x16x2048x32, S4x16x2048x32] S4x16x2048x64 3
  bcast_S_S4x2048 : S_.BroadcastsInDim S4x2048 (![] : Fin 0 → Fin S4x2048.rank)
  bcast_S4x2048_S4x1x1x2048_0_3 : S4x2048.BroadcastsInDim S4x1x1x2048 (![0, 3] : Fin 2 → Fin S4x1x1x2048.rank)
  bcast_S_S4x1x1x2048 : S_.BroadcastsInDim S4x1x1x2048 (![] : Fin 0 → Fin S4x1x1x2048.rank)
  bcast_S_S4x16x2048x2048 : S_.BroadcastsInDim S4x16x2048x2048 (![] : Fin 0 → Fin S4x16x2048x2048.rank)
  bcast_S4x1x1x2048_S4x16x2048x2048_0_1_2_3 : S4x1x1x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.R0.lean ====
import proofs.«406353_j58076547776991_3_alg».proof.Proof.Gen.KernelIdeal.Launch
import proofs.«406353_j58076547776991_3_alg».proof.Proof.Gen.KernelIdeal.Skeleton
import proofs.«406353_j58076547776991_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

def out0_3 (x0 : Vec F S512x1024 .f32) (x1 : Vec F S1024x3072 .bf16) (x2 : Vec F S1x3072 .f32) : Vec F S512x1024 .bf16 :=
  View.canon [⟨r0_x, k0_pay2 (View.ld x0 r0_x) (View.ld x1 r0_w) (View.ld x2 r0_b)⟩]
def out0_4 (x0 : Vec F S512x1024 .f32) (x1 : Vec F S1024x3072 .bf16) (x2 : Vec F S1x3072 .f32) : Vec F S512x1024 .bf16 :=
  View.canon [⟨r0_x, k0_pay3 (View.ld x0 r0_x) (View.ld x1 r0_w) (View.ld x2 r0_b)⟩]
def out0_5 (x0 : Vec F S512x1024 .f32) (x1 : Vec F S1024x3072 .bf16) (x2 : Vec F S1x3072 .f32) : Vec F S512x1024 .bf16 :=
  View.canon [⟨r0_x, k0_pay4 (View.ld x0 r0_x) (View.ld x1 r0_w) (View.ld x2 r0_b)⟩]

theorem cover0_o (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

set_option maxHeartbeats 4000000 in

theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Q1.lean ====
import proofs.«406353_j58076547776991_3_alg».proof.Proof.Gen.KernelIdeal.Launch

namespace Cert.KernelIdeal.Gen

open Idealize.ShloMosaic Idealize.SL.RA

def q1 : Fin 9 → PosShare TreeShare
  | ⟨0, _⟩ => fullShare
  | ⟨1, _⟩ => fullShare
  | ⟨2, _⟩ => fullShare
  | ⟨3, _⟩ => fullShare.left
  | ⟨4, _⟩ => fullShare.left
  | ⟨5, _⟩ => fullShare.right
  | ⟨6, _⟩ => fullShare.right
  | ⟨7, _⟩ => fullShare
  | ⟨8, _⟩ => fullShare

end Cert.KernelIdeal.Gen
-- ==== Proof.R1.lean ====
import proofs.«406353_j58076547776991_3_alg».proof.Proof.Gen.KernelIdeal.Launch
import proofs.«406353_j58076547776991_3_alg».proof.Proof.Gen.KernelIdeal.Skeleton
import proofs.«406353_j58076547776991_3_alg».proof.Proof.Gen.KernelIdeal.Points
import proofs.«406353_j58076547776991_3_alg».proof.Proof.Q1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 3).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel

theorem idleAt1_8_A : ∀ t : Fin cfg1.N, cond1_0 (grid1.coords t) → ¬cond1_1 (grid1.coords t) → cfg1.idle 8 (grid1.coords t) = true := by decide +kernel
theorem noFlush1_8_A : ∀ t : Fin cfg1.N, cond1_0 (grid1.coords t) → ¬cond1_1 (grid1.coords t) → (cfg1.win 8).flush t = false := by decide +kernel
theorem liveAt1_8_C : ∀ t : Fin cfg1.N, ¬cond1_0 (grid1.coords t) → cond1_1 (grid1.coords t) → cfg1.idle 8 (grid1.coords t) = false := by decide +kernel

abbrev VO1_8 : View sig .tc .vmem S1x1x1024x64 .bf16 := (Memref.whole cc1_stg8_0 : Memref sig .tc .vmem S1x1x1024x64 .bf16).view
abbrev ms1_0 (t : Fin cfg1.N) : Memref sig .tc .vmem S1x1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x1024x64 .bf16 := win1_8.stage (cfg1.slots t 8)
abbrev hs1_8 (t : Fin cfg1.N) : (ms1_8 t).IsWhole := hstage1_8 ((cfg1.slots t 8).cast nbuf1_8)

abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x64 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x64 .f32 := scM1_2.view

section
variable (c : Dev nD) (i : grid1.Coords) (arg4 : Memref sig .tc .vmem S1x1x1024x64 .bf16) (harg4 : arg4.IsWhole) (arg5 : Memref sig .tc .vmem S1x1x1024x64 .bf16) (harg5 : arg5.IsWhole) (arg6 : Memref sig .tc .vmem S1x1x1024x64 .bf16) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1x1x1024 .f32) (harg11 : arg11.IsWhole) (arg12 : Memref sig .tc .vmem S1x1x1024x64 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x64 .f32) (harg15 : arg15.IsWhole)

set_option maxHeartbeats 8000000 in

noncomputable def kernelRun1_A (hc0 : cond1_0 i) (hc1 : ¬cond1_1 i)
    (x0 x1 x2 : Vec F S1x1x1024x64 .bf16) (x3 x4 x5 x6 : Vec F S1024x64 .f32) (x7 : Vec F S1x1x1024 .f32) :
    Σ' (LS0 : List (View.Piece (Elt F) S1024x1 .f32)) (LS1 : List (View.Piece (Elt F) S1024x1 .f32)), { LS2 : List (View.Piece (Elt F) S1024x64 .f32) //
      ∀ (xi8 : Vec F S1x1x1024x64 .bf16) (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare xi8
            ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare xi8
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13 arg14 harg14 arg15 harg15) K } := by
  refine ⟨?_, ?_, ?_, fun xi8 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf5; obtain rfl := harg10.eq_unread hf6; obtain rfl := harg11.eq_unread hf7
    obtain rfl := harg12.eq_unread hf8
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [HS0]; · iexists _; iexact HS0
    isplitl [HS1]; · iexists _; iexact HS1
    iexists _; iexact HS2

set_option maxHeartbeats 8000000 in

noncomputable def kernelRun1_C (hc0 : ¬cond1_0 i) (hc1 : cond1_1 i)
    (x0 x1 x2 : Vec F S1x1x1024x64 .bf16) (x3 x4 x5 x6 : Vec F S1024x64 .f32) (x7 : Vec F S1x1x1024 .f32) (xs0 xs1 : Vec F S1024x1 .f32) (xs2 : Vec F S1024x64 .f32) :
    Σ' (L8 : List (View.Piece (Elt F) S1x1x1024x64 .bf16)) (LS0 : List (View.Piece (Elt F) S1024x1 .f32)) (LS1 : List (View.Piece (Elt F) S1024x1 .f32)), { LS2 : List (View.Piece (Elt F) S1024x64 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d)
            ∗ owns (c : Thread nD τ) arg13 fullShare xs0 ∗ owns (c : Thread nD τ) arg14 fullShare xs1 ∗ owns (c : Thread nD τ) arg15 fullShare xs2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ f, arg12.view.loc (c : Thread nD τ) ↦[arg12.view.set]{fullShare} arg12.view.writes (Elt F) f L8)
                ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2)) -∗ K ⟨⟩))
          ⊢ wp frame (wpE (defs₀ (F := F)) Variants.none c none) E (cc1__attn_kernel i arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, ⟨%fs2, %hfs2, HS2⟩, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf5; obtain rfl := harg10.eq_unread hf6; obtain rfl := harg11.eq_unread hf7
    obtain rfl := harg13.eq_unread hfs0; obtain rfl := harg14.eq_unread hfs1; obtain rfl := harg15.eq_unread hfs2
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexists _; iexact H8
    isplitl [HS0]; · iexists _; iexact HS0
    isplitl [HS1]; · iexists _; iexact HS1
    iexists _; iexact HS2

abbrev sbuf (c : Dev nD) (b : Ref sig .tc) : sProp 𝕄 :=
  iprop(∃ f : Buf (Elt F) ((c : Thread nD τ).loc b), ((c : Thread nD τ).loc b) ↦{fullShare} f)

def others1 (c : Dev nD) : sProp 𝕄 :=
  iprop(sbuf (F := F) c cc0_stg0_0 ∗ sbuf (F := F) c cc0_stg0_1 ∗ sbuf (F := F) c cc0_stg1_0 ∗ sbuf (F := F) c cc0_stg2_0 ∗ sbuf (F := F) c cc0_stg3_0 ∗ sbuf (F := F) c cc0_stg3_1 ∗ sbuf (F := F) c cc0_stg4_0 ∗ sbuf (F := F) c cc0_stg4_1 ∗ sbuf (F := F) c cc0_stg5_0 ∗ sbuf (F := F) c cc0_stg5_1 ∗ sbuf (F := F) c cc2_stg0_0 ∗ sbuf (F := F) c cc2_stg0_1 ∗ sbuf (F := F) c cc2_stg1_0 ∗ sbuf (F := F) c cc2_stg2_0 ∗ sbuf (F := F) c cc2_stg3_0 ∗ sbuf (F := F) c cc2_stg3_1)

def scratchAny1 (c : Dev nD) : sProp 𝕄 :=
  iprop((∃ d, owns (c : Thread nD τ) scM1_0 fullShare d) ∗ (∃ d, owns (c : Thread nD τ) scM1_1 fullShare d) ∗ (∃ d, owns (c : Thread nD τ) scM1_2 fullShare d) ∗ (∃ r, prngReg c r))

theorem PhiA1_in (c : Dev nD) : (Pipeline.ΦA spec1 c : sProp 𝕄) ⊢ iprop(others1 (F := F) c ∗ scratchAny1 (F := F) c) := by
  unfold Pipeline.ΦA; rw [scopedRest1_eq]; unfold others1 scratchAny1; simp only [owns_whole]
  iintro ⟨⟨B0, B1, B2, B3, B4, B5, B6, B7, B8, B9, B10, B11, B12, B13, B14, B15, B16, B17, B18⟩, Hg⟩
  isplitl [B0 B1 B2 B3 B4 B5 B6 B7 B8 B9 B13 B14 B15 B16 B17 B18]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B13]; · iexact B13
    isplitl [B14]; · iexact B14
    isplitl [B15]; · iexact B15
    isplitl [B16]; · iexact B16
    isplitl [B17]; · iexact B17
    iexact B18
  isplitl [B10]; · iexact B10
  isplitl [B11]; · iexact B11
  isplitl [B12]; · iexact B12
  iexact Hg

theorem PhiA1_out (c : Dev nD) : iprop(others1 (F := F) c ∗ scratchAny1 (F := F) c) ⊢ (Pipeline.ΦA spec1 c : sProp 𝕄) := by
  unfold Pipeline.ΦA; rw [scopedRest1_eq]; unfold others1 scratchAny1; simp only [owns_whole]
  iintro ⟨⟨B0, B1, B2, B3, B4, B5, B6, B7, B8, B9, B13, B14, B15, B16, B17, B18⟩, B10, B11, B12, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    iexact B18
  iexact Hg

theorem scover1_A_0 (hc0 : cond1_0 i) (hc1 : ¬cond1_1 i) (x0 x1 x2 : Vec F S1x1x1024x64 .bf16) (x3 x4 x5 x6 : Vec F S1024x64 .f32) (x7 : Vec F S1x1x1024 .f32) (y : S1024x1.Idx) :
    ∃ pc ∈ (kernelRun1_A c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).1, y ∈ pc.1.set :=
  View.cover_of_tiledL (kernelRun1_A c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).1 S1024x1.size (by sl_kernel_rfl) y

def sout1_A_0 (hc0 : cond1_0 i) (hc1 : ¬cond1_1 i) (x0 x1 x2 : Vec F S1x1x1024x64 .bf16) (x3 x4 x5 x6 : Vec F S1024x64 .f32) (x7 : Vec F S1x1x1024 .f32) : Vec F S1024x1 .f32 :=
  VS1_0.read (Elt F) (VS1_0.writes (Elt F) VS1_0.junk (kernelRun1_A c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).1)

theorem scover1_C_0 (hc0 : ¬cond1_0 i) (hc1 : cond1_1 i) (x0 x1 x2 : Vec F S1x1x1024x64 .bf16) (x3 x4 x5 x6 : Vec F S1024x64 .f32) (x7 : Vec F S1x1x1024 .f32) (xs0 xs1 : Vec F S1024x1 .f32) (xs2 : Vec F S1024x64 .f32) (y : S1024x1.Idx) :
    ∃ pc ∈ (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).2.1, y ∈ pc.1.set :=
  View.cover_of_tiledL (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).2.1 S1024x1.size (by sl_kernel_rfl) y

def sout1_C_0 (hc0 : ¬cond1_0 i) (hc1 : cond1_1 i) (x0 x1 x2 : Vec F S1x1x1024x64 .bf16) (x3 x4 x5 x6 : Vec F S1024x64 .f32) (x7 : Vec F S1x1x1024 .f32) (xs0 xs1 : Vec F S1024x1 .f32) (xs2 : Vec F S1024x64 .f32) : Vec F S1024x1 .f32 :=
  VS1_0.read (Elt F) (VS1_0.writes (Elt F) VS1_0.junk (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).2.1)

theorem scover1_A_1 (hc0 : cond1_0 i) (hc1 : ¬cond1_1 i) (x0 x1 x2 : Vec F S1x1x1024x64 .bf16) (x3 x4 x5 x6 : Vec F S1024x64 .f32) (x7 : Vec F S1x1x1024 .f32) (y : S1024x1.Idx) :
    ∃ pc ∈ (kernelRun1_A c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1, y ∈ pc.1.set :=
  View.cover_of_tiledL (kernelRun1_A c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1 S1024x1.size (by sl_kernel_rfl) y

def sout1_A_1 (hc0 : cond1_0 i) (hc1 : ¬cond1_1 i) (x0 x1 x2 : Vec F S1x1x1024x64 .bf16) (x3 x4 x5 x6 : Vec F S1024x64 .f32) (x7 : Vec F S1x1x1024 .f32) : Vec F S1024x1 .f32 :=
  VS1_1.read (Elt F) (VS1_1.writes (Elt F) VS1_1.junk (kernelRun1_A c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.1)

theorem scover1_C_1 (hc0 : ¬cond1_0 i) (hc1 : cond1_1 i) (x0 x1 x2 : Vec F S1x1x1024x64 .bf16) (x3 x4 x5 x6 : Vec F S1024x64 .f32) (x7 : Vec F S1x1x1024 .f32) (xs0 xs1 : Vec F S1024x1 .f32) (xs2 : Vec F S1024x64 .f32) (y : S1024x1.Idx) :
    ∃ pc ∈ (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).2.2.1, y ∈ pc.1.set :=
  View.cover_of_tiledL (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).2.2.1 S1024x1.size (by sl_kernel_rfl) y

def sout1_C_1 (hc0 : ¬cond1_0 i) (hc1 : cond1_1 i) (x0 x1 x2 : Vec F S1x1x1024x64 .bf16) (x3 x4 x5 x6 : Vec F S1024x64 .f32) (x7 : Vec F S1x1x1024 .f32) (xs0 xs1 : Vec F S1024x1 .f32) (xs2 : Vec F S1024x64 .f32) : Vec F S1024x1 .f32 :=
  VS1_1.read (Elt F) (VS1_1.writes (Elt F) VS1_1.junk (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).2.2.1)

theorem scover1_A_2 (hc0 : cond1_0 i) (hc1 : ¬cond1_1 i) (x0 x1 x2 : Vec F S1x1x1024x64 .bf16) (x3 x4 x5 x6 : Vec F S1024x64 .f32) (x7 : Vec F S1x1x1024 .f32) (y : S1024x64.Idx) :
    ∃ pc ∈ (kernelRun1_A c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1, y ∈ pc.1.set :=
  View.cover_of_tiledL (kernelRun1_A c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1 S1024x64.size (by sl_kernel_rfl) y

def sout1_A_2 (hc0 : cond1_0 i) (hc1 : ¬cond1_1 i) (x0 x1 x2 : Vec F S1x1x1024x64 .bf16) (x3 x4 x5 x6 : Vec F S1024x64 .f32) (x7 : Vec F S1x1x1024 .f32) : Vec F S1024x64 .f32 :=
  VS1_2.read (Elt F) (VS1_2.writes (Elt F) VS1_2.junk (kernelRun1_A c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7).2.2.1)

theorem scover1_C_2 (hc0 : ¬cond1_0 i) (hc1 : cond1_1 i) (x0 x1 x2 : Vec F S1x1x1024x64 .bf16) (x3 x4 x5 x6 : Vec F S1024x64 .f32) (x7 : Vec F S1x1x1024 .f32) (xs0 xs1 : Vec F S1024x1 .f32) (xs2 : Vec F S1024x64 .f32) (y : S1024x64.Idx) :
    ∃ pc ∈ (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).2.2.2.1, y ∈ pc.1.set :=
  View.cover_of_tiledL (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).2.2.2.1 S1024x64.size (by sl_kernel_rfl) y

def sout1_C_2 (hc0 : ¬cond1_0 i) (hc1 : cond1_1 i) (x0 x1 x2 : Vec F S1x1x1024x64 .bf16) (x3 x4 x5 x6 : Vec F S1024x64 .f32) (x7 : Vec F S1x1x1024 .f32) (xs0 xs1 : Vec F S1024x1 .f32) (xs2 : Vec F S1024x64 .f32) : Vec F S1024x64 .f32 :=
  VS1_2.read (Elt F) (VS1_2.writes (Elt F) VS1_2.junk (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).2.2.2.1)

theorem cover1_C_8 (hc0 : ¬cond1_0 i) (hc1 : cond1_1 i) (x0 x1 x2 : Vec F S1x1x1024x64 .bf16) (x3 x4 x5 x6 : Vec F S1024x64 .f32) (x7 : Vec F S1x1x1024 .f32) (xs0 xs1 : Vec F S1024x1 .f32) (xs2 : Vec F S1024x64 .f32) (y : S1x1x1024x64.Idx) :
    ∃ pc ∈ (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).1, y ∈ pc.1.set :=
  View.cover_of_tiledL (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).1 S1x1x1024x64.size (by sl_kernel_rfl) y

def out1_C_8 (hc0 : ¬cond1_0 i) (hc1 : cond1_1 i) (x0 x1 x2 : Vec F S1x1x1024x64 .bf16) (x3 x4 x5 x6 : Vec F S1024x64 .f32) (x7 : Vec F S1x1x1024 .f32) (xs0 xs1 : Vec F S1024x1 .f32) (xs2 : Vec F S1024x64 .f32) : Vec F S1x1x1024x64 .bf16 :=
  VO1_8.read (Elt F) (VO1_8.writes (Elt F) VO1_8.junk (kernelRun1_C c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2).1)

end

def out1_A_8 : Vec F S1x1x1024x64 .bf16 :=
  VO1_8.read (Elt F) (VO1_8.writes (Elt F) VO1_8.junk [])

theorem condA0 (t : Fin cfg1.N) (h0 : t.val % 2 = 0) : cond1_0 (grid1.coords t) := (hcond1_0 t).mpr h0
theorem condA1 (t : Fin cfg1.N) (h0 : t.val % 2 = 0) : ¬cond1_1 (grid1.coords t) := fun h => by have := (hcond1_1 t).mp h; omega
theorem condC0 (t : Fin cfg1.N) (h0 : ¬t.val % 2 = 0) : ¬cond1_0 (grid1.coords t) := fun h => h0 ((hcond1_0 t).mp h)
theorem condC1 (t : Fin cfg1.N) (h0 : ¬t.val % 2 = 0) : cond1_1 (grid1.coords t) := (hcond1_1 t).mpr (by omega)

def outsAt1 (c : Dev nD) : (n : ℕ) → n < cfg1.N → Vec F S1x1x1024x64 .bf16 × Vec F S1024x1 .f32 × Vec F S1024x1 .f32 × Vec F S1024x64 .f32
  | 0, hn => (out1_A_8, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) scM1_2 (Memref.isWhole_whole _) (condA0 ⟨0, hn⟩ (Nat.zero_mod 2)) (condA1 ⟨0, hn⟩ (Nat.zero_mod 2)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) scM1_2 (Memref.isWhole_whole _) (condA0 ⟨0, hn⟩ (Nat.zero_mod 2)) (condA1 ⟨0, hn⟩ (Nat.zero_mod 2)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) scM1_2 (Memref.isWhole_whole _) (condA0 ⟨0, hn⟩ (Nat.zero_mod 2)) (condA1 ⟨0, hn⟩ (Nat.zero_mod 2)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 2 = 0 then
      (out1_A_8, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) scM1_2 (Memref.isWhole_whole _) (condA0 ⟨n + 1, hn⟩ h0) (condA1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) scM1_2 (Memref.isWhole_whole _) (condA0 ⟨n + 1, hn⟩ h0) (condA1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) scM1_2 (Memref.isWhole_whole _) (condA0 ⟨n + 1, hn⟩ h0) (condA1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) scM1_2 (Memref.isWhole_whole _) (condC0 ⟨n + 1, hn⟩ h0) (condC1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) scM1_2 (Memref.isWhole_whole _) (condC0 ⟨n + 1, hn⟩ h0) (condC1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) scM1_2 (Memref.isWhole_whole _) (condC0 ⟨n + 1, hn⟩ h0) (condC1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) scM1_2 (Memref.isWhole_whole _) (condC0 ⟨n + 1, hn⟩ h0) (condC1 ⟨n + 1, hn⟩ h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 2 = 0) :
    outsAt1 V c t.val t.isLt = (out1_A_8, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (condA0 t h0) (condA1 t h0) (iblk1 V c 0 t) (iblk1 V c 1 t) (iblk1 V c 2 t) (iblk1 V c 3 t) (iblk1 V c 4 t) (iblk1 V c 5 t) (iblk1 V c 6 t) (iblk1 V c 7 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (condA0 t h0) (condA1 t h0) (iblk1 V c 0 t) (iblk1 V c 1 t) (iblk1 V c 2 t) (iblk1 V c 3 t) (iblk1 V c 4 t) (iblk1 V c 5 t) (iblk1 V c 6 t) (iblk1 V c 7 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (condA0 t h0) (condA1 t h0) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans rfl

theorem outsAt1_C (c : Dev nD) (t : Fin cfg1.N) (h0 : ¬t.val % 2 = 0) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (condC0 t h0) (condC1 t h0) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (condC0 t h0) (condC1 t h0) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (condC0 t h0) (condC1 t h0) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) scM1_2 (Memref.isWhole_whole _) (condC0 t h0) (condC1 t h0) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd (Nat.zero_mod 2) h0
  | succ n => exact (dif_neg h0).trans rfl

def PhiS1 (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl
theorem PhiS1_pos (c : Dev nD) (n : ℕ) (h : n ≤ cfg1.N) (hz : n ≠ 0) :
    PhiS1 V c n h = iprop(others1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

theorem PhiS1_any (c : Dev nD) (n : ℕ) (h : n ≤ cfg1.N) : PhiS1 V c n h ⊢ iprop(others1 (F := F) c ∗ scratchAny1 (F := F) c) := by
  cases n with
  | zero => exact PhiA1_in c
  | succ n =>
    rw [PhiS1_succ]; unfold scratchAny1
    iintro ⟨Ho, H0, H1, H2, Hg⟩
    isplitl [Ho]; · iexact Ho
    isplitl [H0]; · iexists _; iexact H0
    isplitl [H1]; · iexists _; iexact H1
    isplitl [H2]; · iexists _; iexact H2
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = q1 w := rfl
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 16000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 2 = 0
  · have hcA0 : cond1_0 (grid1.coords t) := condA0 t h0
    have hcA1 : ¬cond1_1 (grid1.coords t) := condA1 t h0
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [Dat.leavesExact_idle (dat1 V c) 8 t (idleAt1_8_A t hcA0 hcA1) (noFlush1_8_A t hcA0 hcA1)]
    rw [outsAt1_A V c t h0]
    unfold sout1_A_0 sout1_A_1 sout1_A_2; (try dsimp only)
    rw [PhiS1_castSucc V c t]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := (PhiS1_any V c t.val (Nat.le_of_lt t.isLt)) $$ HΦ
    unfold scratchAny1
    icases HΦ' with ⟨Hoth, HS0, HS1, HS2, Hg⟩
    iapply ((kernelRun1_A c (grid1.coords t) _ _ _ _ _ _ _ _ _ _ _ _ _ _ _ _ _ _ _ _ _ _ _ _ hcA0 hcA1 (iblk1 V c 0 t) (iblk1 V c 1 t) (iblk1 V c 2 t) (iblk1 V c 3 t) (iblk1 V c 4 t) (iblk1 V c 5 t) (iblk1 V c 6 t) (iblk1 V c 7 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, ⟨%es0, HS0⟩, ⟨%es1, HS1⟩, ⟨%es2, HS2⟩⟩
    isplitl [Hoth HS0 HS1 HS2 Hg]
    · isplitl [Hoth]; · iexact Hoth
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_A_2 c _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hcC0 : ¬cond1_0 (grid1.coords t) := condC0 t h0
    have hcC1 : cond1_1 (grid1.coords t) := condC1 t h0
    have hz : t.val ≠ 0 := fun h => h0 (by rw [h])
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5 t], after1_5]
    rw [show (dat1 V c).leavesExact 6 t = owns (c : Thread nD τ) (ms1_6 t) fullShare ((dat1 V c).after 6 t) from by
      unfold Dat.leavesExact; rw [liveAt1_6 t], after1_6]
    rw [show (dat1 V c).leavesExact 7 t = owns (c : Thread nD τ) (ms1_7 t) fullShare ((dat1 V c).after 7 t) from by
      unfold Dat.leavesExact; rw [liveAt1_7 t], after1_7]
    rw [show (dat1 V c).leavesExact 8 t = owns (c : Thread nD τ) (ms1_8 t) fullShare ((dat1 V c).after 8 t) from by
      unfold Dat.leavesExact; rw [liveAt1_8_C t hcC0 hcC1], after1_8]
    rw [outsAt1_C V c t h0]
    unfold out1_C_8 sout1_C_0 sout1_C_1 sout1_C_2; (try dsimp only)
    rw [PhiS1_castSucc V c t, PhiS1_pos V c _ _ hz]
    iintro ⟨⟨Hoth, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_C c (grid1.coords t) _ _ _ _ _ _ _ _ _ _ _ _ _ _ _ _ _ _ _ _ _ _ _ _ hcC0 hcC1 (iblk1 V c 0 t) (iblk1 V c 1 t) (iblk1 V c 2 t) (iblk1 V c 3 t) (iblk1 V c 4 t) (iblk1 V c 5 t) (iblk1 V c 6 t) (iblk1 V c 7 t) _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    isplitl [HS2]; · iexact HS2
    iintro ⟨H0, H1, H2, H3, H4, H5, H6, H7, ⟨%e8, H8⟩, ⟨%es0, HS0⟩, ⟨%es1, HS1⟩, ⟨%es2, HS2⟩⟩
    isplitl [Hoth HS0 HS1 HS2 Hg]
    · isplitl [Hoth]; · iexact Hoth
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_C_1 c _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; exact View.read_writes_of_cover _ _ _ _ _ (scover1_C_2 c _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover1_C_8 c _ _ _ _ _ _ _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c :=
  (show (dat1 V c).Φ (Fin.last cfg1.N) ⊢ iprop(others1 (F := F) c ∗ scratchAny1 (F := F) c) from by
    rw [show (dat1 V c).Φ (Fin.last cfg1.N) = PhiS1 V c (Fin.last cfg1.N).val (Nat.le_of_lt_succ (Fin.last cfg1.N).isLt) from rfl]
    exact PhiS1_any V c _ _).trans (PhiA1_out c)

end Cert.KernelIdeal.Gen

end
-- ==== Proof.R2.lean ====
import proofs.«406353_j58076547776991_3_alg».proof.Proof.Gen.KernelIdeal.Launch
import proofs.«406353_j58076547776991_3_alg».proof.Proof.Gen.KernelIdeal.Skeleton
import proofs.«406353_j58076547776991_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_x : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

def out2_3 (x0 : Vec F S1024x1024 .bf16) (x1 : Vec F S1024x1024 .bf16) (x2 : Vec F S1x1024 .f32) : Vec F S1024x1024 .f32 :=
  View.canon [⟨r2_x, k2_pay1 (View.ld x0 r2_x) (View.ld x1 r2_x) (View.ld x2 r2_b)⟩]

theorem cover2_o (p0 : Vec F S1024x1024 .f32) (y : S1024x1024.Idx) :
    ∃ pc ∈ ([⟨r2_x, p0⟩] : List (View.Piece (Elt F) S1024x1024 .f32)), y ∈ pc.1.set :=
  View.cover_of_tiled [⟨r2_x, p0⟩] S1024x1024.size (by rfl) y

set_option maxHeartbeats 4000000 in

theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_o _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Shared.lean ====
import proofs.«406353_j58076547776991_3_alg».proof.Proof.Q1
import Idealize.ShloMosaic.Lib.Pipeline.RegionsLoop
import Idealize.ShloMosaic.Lib.Pipeline.FrameBody

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

abbrev held (c : Dev nD) (V : (b : Ref sig .tc) → Buf (Elt F) ((c : Thread nD τ).loc b)) (b : Ref sig .tc)
    (q : PosShare TreeShare) : sProp 𝕄 :=
  (c : Thread nD τ).loc b ↦{q} V b

theorem deal {M : Type} [URA M] (A B C D E G H Dl Dr El Er : sProp M) (hD : D ⊣⊢ iprop(Dl ∗ Dr)) (hE : E ⊣⊢ iprop(El ∗ Er)) :
    iprop(A ∗ B ∗ C ∗ D ∗ E ∗ G ∗ H) ⊢ iprop(A ∗ B ∗ C ∗ Dl ∗ El ∗ Dr ∗ Er ∗ G ∗ H) := by
  iintro ⟨HA, HB, HC, HD, HE, HG, HH⟩
  ihave HD := hD.1 $$ HD
  icases HD with ⟨HDl, HDr⟩
  ihave HE := hE.1 $$ HE
  icases HE with ⟨HEl, HEr⟩
  isplitl [HA]; · iexact HA
  isplitl [HB]; · iexact HB
  isplitl [HC]; · iexact HC
  isplitl [HDl]; · iexact HDl
  isplitl [HEl]; · iexact HEl
  isplitl [HDr]; · iexact HDr
  isplitl [HEr]; · iexact HEr
  isplitl [HG]; · iexact HG
  iexact HH

theorem undeal {M : Type} [URA M] (A B C D E G H Dl Dr El Er : sProp M) (hD : D ⊣⊢ iprop(Dl ∗ Dr)) (hE : E ⊣⊢ iprop(El ∗ Er)) :
    iprop(A ∗ B ∗ C ∗ Dl ∗ El ∗ Dr ∗ Er ∗ G ∗ H) ⊢ iprop(A ∗ B ∗ C ∗ D ∗ E ∗ G ∗ H) := by
  iintro ⟨HA, HB, HC, HDl, HEl, HDr, HEr, HG, HH⟩
  isplitl [HA]; · iexact HA
  isplitl [HB]; · iexact HB
  isplitl [HC]; · iexact HC
  isplitl [HDl HDr]
  · iapply hD.2; isplitl [HDl]; · iexact HDl
    iexact HDr
  isplitl [HEl HEr]
  · iapply hE.2; isplitl [HEl]; · iexact HEl
    iexact HEr
  isplitl [HG]; · iexact HG
  iexact HH

theorem share1 {c : Dev nD} (dat : Pipeline.Dat τ (Elt F) Unit ℕ (UR sig nD τ) ℕ cfg1 c) (hq : ∀ w, dat.q w = q1 w) :
    ∀ w : Fin 9, dat.share w = q1 w
  | ⟨0, _⟩ => by unfold Dat.share; rw [hq]; rfl
  | ⟨1, _⟩ => by unfold Dat.share; rw [hq]; rfl
  | ⟨2, _⟩ => by unfold Dat.share; rw [hq]; rfl
  | ⟨3, _⟩ => by unfold Dat.share; rw [hq]; rfl
  | ⟨4, _⟩ => by unfold Dat.share; rw [hq]; rfl
  | ⟨5, _⟩ => by unfold Dat.share; rw [hq]; rfl
  | ⟨6, _⟩ => by unfold Dat.share; rw [hq]; rfl
  | ⟨7, _⟩ => by unfold Dat.share; rw [hq]; rfl
  | ⟨8, _⟩ => by unfold Dat.share; rw [hq]; rfl
  | ⟨_ + 9, h⟩ => absurd h (Nat.not_lt.2 (Nat.le_add_left _ _))

theorem arrBufs1_eq (c : Dev nD) (V : (b : Ref sig .tc) → Buf (Elt F) ((c : Thread nD τ).loc b)) :
    (Pipeline.arrBufs spec1 c V : sProp 𝕄) =
      iprop(held c V main_v8 fullShare ∗ held c V main_v10 fullShare ∗ held c V main_v12 fullShare ∗
        held c V main_v13 fullShare ∗ held c V main_v14 fullShare ∗ held c V main_v19 fullShare ∗
        held c V main_v20 fullShare) := by
  unfold Pipeline.arrBufs
  exact bigSep_eq_bigSepL_of_eq [main_v8, main_v10, main_v12, main_v13, main_v14, main_v19, main_v20]
    (by decide) (by decide) _

theorem arrays1_eq {c : Dev nD} (dat : Pipeline.Dat τ (Elt F) Unit ℕ (UR sig nD τ) ℕ cfg1 c) (hq : ∀ w, dat.q w = q1 w)
    (V : (b : Ref sig .tc) → Buf (Elt F) ((c : Thread nD τ).loc b))
    (Fw : (w : Fin cfg1.W) → Buf (Elt F) ((cfg1.win w).arr.view.loc (c : Thread nD τ)))
    (hF : ∀ w, Fw w = V (Pipeline.arrRef spec1 w)) :
    (dat.arrays Fw : sProp 𝕄) =
      iprop(held c V main_v8 fullShare ∗ held c V main_v10 fullShare ∗ held c V main_v12 fullShare ∗
        held c V main_v13 fullShare.left ∗ held c V main_v14 fullShare.left ∗
        held c V main_v13 fullShare.right ∗ held c V main_v14 fullShare.right ∗
        held c V main_v19 fullShare ∗ held c V main_v20 fullShare) := by
  have h : (dat.arrays Fw : sProp 𝕄) = bigSep Finset.univ fun w : Fin 9 => held c V (Pipeline.arrRef spec1 w) (q1 w) := by
    unfold Dat.arrays
    exact bigSep_congr fun w _ => by rw [(arr_whole1 w).set_eq_univ, share1 dat hq w, hF w]
  rw [h, bigSep_W1]
  rfl

theorem arrays1_of_unscopedBufs (c : Dev nD) (dat : Pipeline.Dat τ (Elt F) Unit ℕ (UR sig nD τ) ℕ cfg1 c)
    (hq : ∀ w, dat.q w = q1 w)
    (Vc : (b : Ref sig .tc) → Buf (Elt F) ((c : Thread nD τ).loc b)) (hA : ∀ w, dat.A w = Vc (Pipeline.arrRef spec1 w)) :
    (unscopedBufs c Vc : sProp 𝕄) ⊢ iprop(dat.arrays dat.A ∗ Pipeline.unscopedRest spec1 c Vc) := by
  rw [Pipeline.unscopedBufs_split₀ (fun _ : Unit => cfg1) () winFacts₀1.arr_unscoped c Vc]
  refine sep_mono ?_ .rfl
  show (Pipeline.arrBufs spec1 c Vc : sProp 𝕄) ⊢ dat.arrays dat.A
  rw [arrBufs1_eq, arrays1_eq dat hq Vc dat.A hA]
  exact deal _ _ _ _ _ _ _ _ _ _ _ (pointsTo_share (PosShare.mem_left_op_right fullShare))
    (pointsTo_share (PosShare.mem_left_op_right fullShare))

theorem unscopedBufs_of_arrays1 (c : Dev nD) (dat : Pipeline.Dat τ (Elt F) Unit ℕ (UR sig nD τ) ℕ cfg1 c)
    (hq : ∀ w, dat.q w = q1 w)
    (Vc V' : (b : Ref sig .tc) → Buf (Elt F) ((c : Thread nD τ).loc b))
    (Fw : (w : Fin cfg1.W) → Buf (Elt F) ((cfg1.win w).arr.view.loc (c : Thread nD τ)))
    (hF : ∀ w, Fw w = V' (Pipeline.arrRef spec1 w))
    (hrest : ∀ b, b ∉ Finset.univ.image (Pipeline.arrRef spec1) → V' b = Vc b) :
    iprop(dat.arrays Fw ∗ Pipeline.unscopedRest spec1 c Vc) ⊢ (unscopedBufs c V' : sProp 𝕄) := by
  rw [Pipeline.unscopedBufs_split₀ (fun _ : Unit => cfg1) () winFacts₀1.arr_unscoped c V']
  refine sep_mono ?_ (Entails.of_eq ?_)
  · show (dat.arrays Fw : sProp 𝕄) ⊢ Pipeline.arrBufs spec1 c V'
    rw [arrBufs1_eq, arrays1_eq dat hq V' Fw hF]
    exact undeal _ _ _ _ _ _ _ _ _ _ _ (pointsTo_share (PosShare.mem_left_op_right fullShare))
      (pointsTo_share (PosShare.mem_left_op_right fullShare))
  · show (Pipeline.unscopedRest spec1 c Vc : sProp 𝕄) = Pipeline.unscopedRest spec1 c V'
    unfold Pipeline.unscopedRest
    exact bigSep_congr fun b hb => by rw [hrest b (Finset.mem_sdiff.mp hb).2]

end Cert.KernelIdeal.Gen
-- ==== Proof.Run.lean ====
import proofs.«406353_j58076547776991_3_alg».proof.Proof.Gen.KernelIdeal.Launch
import proofs.«406353_j58076547776991_3_alg».proof.Proof.Gen.KernelIdeal.Skeleton
import proofs.«406353_j58076547776991_3_alg».proof.Proof.Gen.KernelIdeal.Points
import proofs.«406353_j58076547776991_3_alg».proof.Proof.R0
import proofs.«406353_j58076547776991_3_alg».proof.Proof.R1
import proofs.«406353_j58076547776991_3_alg».proof.Proof.R2
import proofs.«406353_j58076547776991_3_alg».proof.Proof.Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m ((c : Dev nD), b)

abbrev W1 : Dev nD → Valuation τ sig (Elt F) := fun c => StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b

def W4 (c : Dev nD) : Valuation τ sig (Elt F) :=
  Function.update (W3 m c) (Proc.devRef .tc main_v20) ((dat1 (V3 m) c).arrAt 8 cfg1.N)
theorem W4_out (c : Dev nD) : W4 m c (Proc.devRef .tc main_v20) = (dat1 (V3 m) c).arrAt 8 cfg1.N := by
  unfold W4; exact Function.update_self _ _ _
theorem W4_of_ne (c : Dev nD) (b : Ref sig .tc) (hb : b ≠ main_v20) :
    W4 m c (Proc.devRef .tc b) = W3 m c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of_ne m c _ (by decide)).symm
  | ⟨1, _⟩ => exact (((dat1 (V3 m) c).arrAt_in 1 rfl _).trans (A_eq1 (V3 m) c 1)).trans (W4_of_ne m c _ (by decide)).symm
  | ⟨2, _⟩ => exact (((dat1 (V3 m) c).arrAt_in 2 rfl _).trans (A_eq1 (V3 m) c 2)).trans (W4_of_ne m c _ (by decide)).symm
  | ⟨3, _⟩ => exact (((dat1 (V3 m) c).arrAt_in 3 rfl _).trans (A_eq1 (V3 m) c 3)).trans (W4_of_ne m c _ (by decide)).symm
  | ⟨4, _⟩ => exact (((dat1 (V3 m) c).arrAt_in 4 rfl _).trans (A_eq1 (V3 m) c 4)).trans (W4_of_ne m c _ (by decide)).symm
  | ⟨5, _⟩ => exact (((dat1 (V3 m) c).arrAt_in 5 rfl _).trans (A_eq1 (V3 m) c 5)).trans (W4_of_ne m c _ (by decide)).symm
  | ⟨6, _⟩ => exact (((dat1 (V3 m) c).arrAt_in 6 rfl _).trans (A_eq1 (V3 m) c 6)).trans (W4_of_ne m c _ (by decide)).symm
  | ⟨7, _⟩ => exact (((dat1 (V3 m) c).arrAt_in 7 rfl _).trans (A_eq1 (V3 m) c 7)).trans (W4_of_ne m c _ (by decide)).symm
  | ⟨8, _⟩ => exact (W4_out m c).symm
theorem hrest1 (c : Dev nD) : ∀ b, b ∉ Finset.univ.image (Pipeline.arrRef spec1) → V4 m c b = V3 m c b :=
  fun b hb => W4_of_ne m c b fun e => hb (Finset.mem_image.mpr ⟨8, Finset.mem_univ _, e.symm⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W6 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays1_of_unscopedBufs c (pdats m 1 c) (q_eq1 (V3 m) c) (V3 m c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := unscopedBufs_of_arrays1 c (pdats m 1 c) (q_eq1 (V3 m) c) (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)),
    .region (reg2 m),
    .host (hseg hostOps3 hostOps3_sub hostOps3_fresh' (W6 m)) ]
theorem main_run (c : Dev nD) : main (F := F) c = Pipeline.Seg.run (segs m) := (main_chain c).trans (by chain_rfl)

set_option backward.isDefEq.respectTransparency.types false in

theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (StableHlo.after hostOps3 (W6 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Gen

end
-- ==== Proof.Kept.lean ====
import proofs.«406353_j58076547776991_3_alg».proof.Proof.Run
import Idealize.ShloMosaic.Lib.StableHlo.Run

noncomputable section

namespace Cert.KernelIdeal.Gen

open Idealize.ShloMosaic Idealize.ShloMosaic.TcCoe Idealize.SL.Sem

variable {F : FTy → Type} [FloatOps F] (m : (ℓ : Loc nD τ sig) → Buf (Elt F) ℓ)

abbrev wr0 : List (Ref sig .tc) := [main_v0, main_v1, main_v2, main_v3, main_v4, main_v5]
abbrev wr1 : List (Ref sig .tc) := [main_v7, main_v8, main_v9, main_v10, main_v11, main_v12, main_v13, main_v14, main_cst, main_v15, main_v16, main_cst_0, main_v17, main_v18, main_v19]
abbrev wr2 : List (Ref sig .tc) := [main_v21, main_v22, main_v23, main_v24, main_v25]
abbrev wr3 : List (Ref sig .tc) := [main_v27]
abbrev args : List (Ref sig .tc) := [main_arg0, main_arg1, main_arg2, main_arg3, main_arg4, main_arg5, main_arg6, main_arg7, main_arg8, main_arg9, main_arg10, main_arg11]

theorem wr0_sub : (hostOps0 : List (HloOp τ sig (Elt F))).Forall fun op => op.writes ⊆ (wr0.map (Proc.devRef (τ := τ) .tc)).toFinset := by
  simp only [List.Forall]
  refine ⟨?_, ?_, ?_, ?_, ?_, ?_⟩ <;> (simp only [StableHlo.nullary_writes, StableHlo.unary_writes, StableHlo.binary_writes, StableHlo.reshape_writes, StableHlo.nary_writes, Finset.singleton_subset_iff, List.mem_toFinset]; exact List.mem_map_of_mem (by decide))
theorem wr1_sub : (hostOps1 : List (HloOp τ sig (Elt F))).Forall fun op => op.writes ⊆ (wr1.map (Proc.devRef (τ := τ) .tc)).toFinset := by
  simp only [List.Forall]
  refine ⟨?_, ?_, ?_, ?_, ?_, ?_, ?_, ?_, ?_, ?_, ?_, ?_, ?_, ?_, ?_⟩ <;> (simp only [StableHlo.nullary_writes, StableHlo.unary_writes, StableHlo.binary_writes, StableHlo.reshape_writes, StableHlo.nary_writes, Finset.singleton_subset_iff, List.mem_toFinset]; exact List.mem_map_of_mem (by decide))
theorem wr2_sub : (hostOps2 : List (HloOp τ sig (Elt F))).Forall fun op => op.writes ⊆ (wr2.map (Proc.devRef (τ := τ) .tc)).toFinset := by
  simp only [List.Forall]
  refine ⟨?_, ?_, ?_, ?_, ?_⟩ <;> (simp only [StableHlo.nullary_writes, StableHlo.unary_writes, StableHlo.binary_writes, StableHlo.reshape_writes, StableHlo.nary_writes, Finset.singleton_subset_iff, List.mem_toFinset]; exact List.mem_map_of_mem (by decide))
theorem wr3_sub : (hostOps3 : List (HloOp τ sig (Elt F))).Forall fun op => op.writes ⊆ (wr3.map (Proc.devRef (τ := τ) .tc)).toFinset := by
  simp only [List.Forall]
  simp only [StableHlo.nullary_writes, StableHlo.unary_writes, StableHlo.binary_writes, StableHlo.reshape_writes, StableHlo.nary_writes, Finset.singleton_subset_iff, List.mem_toFinset]; exact List.mem_map_of_mem (by decide)

/-- A buffer that neither the first two host stretches nor the first two calls write is, after the attention call, as at launch. -/
theorem W4_keep (c : Dev nD) (r : Ref sig .tc) (h4 : r ≠ main_v20) (h3 : r ∉ wr1) (h2 : ∀ w, Pipeline.arrRef spec0 w ≠ r) (h1 : r ∉ wr0) :
    W4 m c (Proc.devRef .tc r) = W0 m c (Proc.devRef .tc r) :=
  (W4_of_ne m c r h4).trans <| (StableHlo.after_of_writes_sub hostOps1 _ wr1_sub h3).trans <| (W2_of_ne m c r h2).trans
    (StableHlo.after_of_writes_sub hostOps0 _ wr0_sub h1)

/-- No host stretch and no call writes an argument array, so at the end each is as at launch. -/
theorem kept_of (mem : (ℓ : Loc nD τ sig) → Buf (Elt F) ℓ) (c : Dev nD)
    (h : ∀ b ∈ Pipeline.ucRefs τ sig, mem (((c : Thread nD τ)).1, b) = W7 m c b) :
    args.Forall fun r => mem ((c : Thread nD τ).loc r) = m ((c : Thread nD τ).loc r) := by
  have hd : ∀ r ∈ args, ¬ (Proc.devRef .tc r : DevRef τ sig).isScoped ∧ r ∉ wr3 ∧ (∀ w, Pipeline.arrRef spec2 w ≠ r) ∧ r ∉ wr2 ∧
      r ≠ main_v20 ∧ r ∉ wr1 ∧ (∀ w, Pipeline.arrRef spec0 w ≠ r) ∧ r ∉ wr0 := by decide
  refine List.forall_iff_forall_mem.mpr fun r hr => ?_
  obtain ⟨h8, h7, h6, h5, h4, h3, h2, h1⟩ := hd r hr
  exact (h _ (mem_uc r h8)).trans <| (StableHlo.after_of_writes_sub hostOps3 _ wr3_sub h7).trans <| (W6_of_ne m c r h6).trans <|
    (StableHlo.after_of_writes_sub hostOps2 _ wr2_sub h5).trans (W4_keep m c r h4 h3 h2 h1)

/-- The program runs to the end from any memory, and its argument arrays end as they were at launch. -/
theorem frame (ρ : Dev nD → PrngReg) : θ_run defs (onTc (τ := τ) (main (F := F))) ⟨m, fun _ => 0, ρ⟩
    (fun r => ∀ c : Dev nD, args.Forall fun b => r.2.mem ((c : Thread nD τ).loc b) = m ((c : Thread nD τ).loc b)) :=
  (θ_run defs _ _).mono (fun r h c => kept_of m r.2.mem c (h c)) (run_all m ρ)

end Cert.KernelIdeal.Gen

end
-- ==== Proof.KArgs.lean ====
import proofs.«406353_j58076547776991_3_alg».proof.Proof.Gen.KernelIdeal.Launch
import Idealize.ShloMosaic.PureOps.Ideal

noncomputable section

namespace Cert.KernelIdeal.Gen

open Idealize.ShloMosaic Idealize.ShloMosaic.TcCoe Idealize.SL.Sem

variable (m : (ℓ : Loc nD τ sig) → Buf (Elt Ideal) ℓ)

abbrev aX (c : Dev nD) : S4x2048x1024.Idx → EReal := m ((c : Thread nD τ).loc main_arg0)
abbrev aCos (c : Dev nD) : S1x1x2048x64.Idx → EReal := m ((c : Thread nD τ).loc main_arg1)
abbrev aSin (c : Dev nD) : S1x1x2048x64.Idx → EReal := m ((c : Thread nD τ).loc main_arg2)
abbrev aMask (c : Dev nD) : S4x2048.Idx → EReal := m ((c : Thread nD τ).loc main_arg3)
abbrev aQw (c : Dev nD) : S1024x1024.Idx → EReal := m ((c : Thread nD τ).loc main_arg4)
abbrev aQb (c : Dev nD) : S1024.Idx → EReal := m ((c : Thread nD τ).loc main_arg5)
abbrev aKw (c : Dev nD) : S1024x1024.Idx → EReal := m ((c : Thread nD τ).loc main_arg6)
abbrev aKb (c : Dev nD) : S1024.Idx → EReal := m ((c : Thread nD τ).loc main_arg7)
abbrev aVw (c : Dev nD) : S1024x1024.Idx → EReal := m ((c : Thread nD τ).loc main_arg8)
abbrev aVb (c : Dev nD) : S1024.Idx → EReal := m ((c : Thread nD τ).loc main_arg9)
abbrev aOw (c : Dev nD) : S1024x1024.Idx → EReal := m ((c : Thread nD τ).loc main_arg10)
abbrev aOb (c : Dev nD) : S1024.Idx → EReal := m ((c : Thread nD τ).loc main_arg11)

end Cert.KernelIdeal.Gen

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev X3 := (⟨3, ![4, 2048, 1024]⟩ : Shape).Idx → EReal
abbrev CS := (⟨4, ![1, 1, 2048, 64]⟩ : Shape).Idx → EReal
abbrev MK := (⟨2, ![4, 2048]⟩ : Shape).Idx → EReal
abbrev W2 := (⟨2, ![1024, 1024]⟩ : Shape).Idx → EReal
abbrev B1 := (⟨1, ![1024]⟩ : Shape).Idx → EReal

abbrev H4 := Fin 4 → Fin 16 → Fin 2048 → Fin 64 → EReal

def headCol (h : Fin 16) (j : Fin 64) : Fin 1024 := ⟨h.val * 64 + j.val, by have := h.isLt; have := j.isLt; omega⟩

def colHead (d : Fin 1024) : Fin 16 := ⟨d.val / 64, by have := d.isLt; omega⟩
def colIn (d : Fin 1024) : Fin 64 := ⟨d.val % 64, by omega⟩

def one : EReal := Ideal.ofBits .f32 0x3F800000#32
def negBig : EReal := Ideal.ofBits .f32 0xCE6E6B28#32
def eighth : EReal := Ideal.ofBits .f32 0x3E000000#32

def proj (x : X3) (w : W2) (b : B1) : H4 := fun bi h s j =>
  (∑ d : Fin 1024, x (ix3 bi s d) * w (ix2 (headCol h j) d)) + b (ix1 (headCol h j))

def rotHalf (t : Fin 64 → EReal) (j : Fin 64) : EReal :=
  if h : j.val < 32 then -(t ⟨j.val + 32, by omega⟩) else t ⟨j.val - 32, by have := j.isLt; omega⟩

def rope (t : H4) (cs sn : CS) : H4 := fun bi h s j =>
  t bi h s j * cs (ix4 0 0 s j) + rotHalf (t bi h s) j * sn (ix4 0 0 s j)

def maskBias (mask : MK) (bi : Fin 4) (k : Fin 2048) : EReal := (one - mask (ix2 bi k)) * negBig

def score (Q K : H4) (mask : MK) (bi : Fin 4) (h : Fin 16) (q k : Fin 2048) : EReal :=
  (∑ j : Fin 64, Q bi h q j * K bi h k j) * eighth + maskBias mask bi k

def rowMax {n : ℕ} (init : EReal) (s : Fin n → EReal) : EReal := (Finset.univ : Finset (Fin n)).fold max init s

def softOut {n : ℕ} (s v : Fin n → EReal) : EReal :=
  ∑ k : Fin n, Ideal.div (Ideal.exp (s k - max ⊥ (rowMax ⊥ s))) (0 + ∑ k' : Fin n, Ideal.exp (s k' - max ⊥ (rowMax ⊥ s))) * v k

def flashStep {n : ℕ} (st : EReal × EReal × EReal) (s v : Fin n → EReal) : EReal × EReal × EReal :=
  (max st.1 (rowMax ⊥ s),
   Ideal.exp (st.1 - max st.1 (rowMax ⊥ s)) * st.2.1 + ∑ k : Fin n, Ideal.exp (s k - max st.1 (rowMax ⊥ s)),
   Ideal.exp (st.1 - max st.1 (rowMax ⊥ s)) * st.2.2 + ∑ k : Fin n, Ideal.exp (s k - max st.1 (rowMax ⊥ s)) * v k)

def lo (f : Fin 2048 → EReal) : Fin 1024 → EReal := fun k => f ⟨k.val, by have := k.isLt; omega⟩
def hi (f : Fin 2048 → EReal) : Fin 1024 → EReal := fun k => f ⟨k.val + 1024, by have := k.isLt; omega⟩

def flashOut (s v : Fin 2048 → EReal) : EReal :=
  let st := flashStep (flashStep (⊥, 0, 0) (lo s) (lo v)) (hi s) (hi v)
  Ideal.div st.2.2 st.2.1

def attnWith (out : (Fin 2048 → EReal) → (Fin 2048 → EReal) → EReal) (Q K V : H4) (mask : MK) : H4 := fun bi h q j =>
  out (fun k => score Q K mask bi h q k) (fun k => V bi h k j)

def outProj (A : H4) (w : W2) (b : B1) : X3 := fun i =>
  (∑ d : Fin 1024, A (i 0) (colHead d) (i 1) (colIn d) * w (ix2 (i 2) d)) + b (ix1 (i 2))

def whole (out : (Fin 2048 → EReal) → (Fin 2048 → EReal) → EReal)
    (x : X3) (cs sn : CS) (mask : MK) (qw : W2) (qb : B1) (kw : W2) (kb : B1) (vw : W2) (vb : B1) (ow : W2) (ob : B1) : X3 :=
  outProj (attnWith out (rope (proj x qw qb) cs sn) (rope (proj x kw kb) cs sn) (proj x vw vb) mask) ow ob

end Cert.Spec

end
-- ==== Proof.HostGlue.lean ====
import proofs.«406353_j58076547776991_3_alg».proof.Proof.Gen.KernelIdeal.Launch
import proofs.«406353_j58076547776991_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Cert.KernelIdeal Cert.KernelIdeal.Gen Idealize.ShloMosaic Idealize.ShloMosaic.ValueIdx

variable (W : Valuation τ sig (Elt Ideal))

theorem g_v5 (r : Fin 8192) (d : Fin 1024) (b : Fin 4) (s : Fin 2048) (hr : r.val = b.val * 2048 + s.val) :
    (StableHlo.after hostOps0 W (Proc.devRef .tc main_v5) : S8192x1024.Idx → EReal) (ix2 r d)
      = (W (Proc.devRef .tc main_arg0) : S4x2048x1024.Idx → EReal) (ix3 b s d) := by
  have e0 : (StableHlo.after hostOps0 W (Proc.devRef .tc main_v5) : S8192x1024.Idx → EReal)
      = shapeCast S8192x1024 (W (Proc.devRef .tc main_arg0) : S4x2048x1024.Idx → EReal) shapeCasts_S4x2048x1024_S8192x1024 := by
    simp only [hostOps0]; after_results <;> rfl
  rw [e0]
  exact shapeCast_apply _ shapeCasts_S4x2048x1024_S8192x1024 _ _ (by
    rw [Shape.rowMajor_val_three, Shape.rowMajor_val_two]
    show (b.val * 2048 + s.val) * 1024 + d.val = r.val * 1024 + d.val
    rw [hr])

theorem stackT (x1 x2 x3 : S1024x1024.Idx → EReal) (k : Fin 3) (d e : Fin 1024) (c : Fin 3072) (hc : c.val = e.val + 1024 * k.val) :
    transpose S1024x3072 [1, 0] (concatenate S3072x1024 0 [⟨S1024x1024, x1⟩, ⟨S1024x1024, x2⟩, ⟨S1024x1024, x3⟩]
        concatenates_S1024x1024_S1024x1024_S1024x1024_S3072x1024_d0) transposes_S3072x1024_S1024x3072_1_0 (ix2 d c)
      = ![x1, x2, x3] k (ix2 e d) := by
  rw [transpose_apply [1, 0] _ transposes_S3072x1024_S1024x3072_1_0 (ix2 d c) (ix2 c d) (fun a => match a with
    | ⟨0, _⟩ => rfl
    | ⟨1, _⟩ => rfl)]
  match k, hc with
  | 0, hc =>
    exact concatenate_apply_piece (t := S3072x1024) (0 : Fin 2) [⟨S1024x1024, x1⟩, ⟨S1024x1024, x2⟩, ⟨S1024x1024, x3⟩]
      concatenates_S1024x1024_S1024x1024_S1024x1024_S3072x1024_d0 (ix2 c d) 0 (by show (0 : Nat) < 3; decide) S1024x1024 x1 rfl rfl 0 rfl (ix2 e d)
      (fun b hb => by match b, hb with | ⟨0, _⟩, hb => exact absurd rfl hb | ⟨1, _⟩, _ => rfl) (by show 0 + e.val = c.val; omega)
  | 1, hc =>
    exact concatenate_apply_piece (t := S3072x1024) (0 : Fin 2) [⟨S1024x1024, x1⟩, ⟨S1024x1024, x2⟩, ⟨S1024x1024, x3⟩]
      concatenates_S1024x1024_S1024x1024_S1024x1024_S3072x1024_d0 (ix2 c d) 1 (by show (1 : Nat) < 3; decide) S1024x1024 x2 rfl rfl 1024 (by simp) (ix2 e d)
      (fun b hb => by match b, hb with | ⟨0, _⟩, hb => exact absurd rfl hb | ⟨1, _⟩, _ => rfl) (by show 1024 + e.val = c.val; omega)
  | 2, hc =>
    exact concatenate_apply_piece (t := S3072x1024) (0 : Fin 2) [⟨S1024x1024, x1⟩, ⟨S1024x1024, x2⟩, ⟨S1024x1024, x3⟩]
      concatenates_S1024x1024_S1024x1024_S1024x1024_S3072x1024_d0 (ix2 c d) 2 (by show (2 : Nat) < 3; decide) S1024x1024 x3 rfl rfl 2048 (by simp) (ix2 e d)
      (fun b hb => by match b, hb with | ⟨0, _⟩, hb => exact absurd rfl hb | ⟨1, _⟩, _ => rfl) (by show 2048 + e.val = c.val; omega)

theorem g_v2_term :
    (StableHlo.after hostOps0 W (Proc.devRef .tc main_v2) : S1024x3072.Idx → EReal)
      = (truncf (F := Ideal) (φ := .f32) .bf16 (transpose S1024x3072 [1, 0] (concatenate S3072x1024 0
          [⟨S1024x1024, (W (Proc.devRef .tc main_arg4) : S1024x1024.Idx → EReal)⟩, ⟨S1024x1024, (W (Proc.devRef .tc main_arg6) : S1024x1024.Idx → EReal)⟩,
           ⟨S1024x1024, (W (Proc.devRef .tc main_arg8) : S1024x1024.Idx → EReal)⟩]
          concatenates_S1024x1024_S1024x1024_S1024x1024_S3072x1024_d0) transposes_S3072x1024_S1024x3072_1_0) bitsLt_bf16_f32 : S1024x3072.Idx → EReal) := by
  simp only [hostOps0]; after_results <;> rfl

theorem g_v2_q (d e : Fin 1024) :
    (StableHlo.after hostOps0 W (Proc.devRef .tc main_v2) : S1024x3072.Idx → EReal) (ix2 d ⟨e.val, by have := e.isLt; omega⟩)
      = (W (Proc.devRef .tc main_arg4) : S1024x1024.Idx → EReal) (ix2 e d) := by
  rw [g_v2_term, truncf_apply]
  exact stackT _ _ _ 0 d e _ rfl

theorem g_v2_k (d e : Fin 1024) :
    (StableHlo.after hostOps0 W (Proc.devRef .tc main_v2) : S1024x3072.Idx → EReal) (ix2 d ⟨e.val + 1024, by have := e.isLt; omega⟩)
      = (W (Proc.devRef .tc main_arg6) : S1024x1024.Idx → EReal) (ix2 e d) := by
  rw [g_v2_term, truncf_apply]
  exact stackT _ _ _ 1 d e _ rfl

theorem g_v2_v (d e : Fin 1024) :
    (StableHlo.after hostOps0 W (Proc.devRef .tc main_v2) : S1024x3072.Idx → EReal) (ix2 d ⟨e.val + 2048, by have := e.isLt; omega⟩)
      = (W (Proc.devRef .tc main_arg8) : S1024x1024.Idx → EReal) (ix2 e d) := by
  rw [g_v2_term, truncf_apply]
  exact stackT _ _ _ 2 d e _ rfl

theorem row3 (x1 x2 x3 : S1024.Idx → EReal) (k : Fin 3) (e : Fin 1024) (c : Fin 3072) (hc : c.val = e.val + 1024 * k.val) :
    shapeCast S1x3072 (concatenate S3072 0 [⟨S1024, x1⟩, ⟨S1024, x2⟩, ⟨S1024, x3⟩] concatenates_S1024_S1024_S1024_S3072_d0)
        shapeCasts_S3072_S1x3072 (ix2 0 c)
      = ![x1, x2, x3] k (ix1 e) := by
  rw [shapeCast_apply _ shapeCasts_S3072_S1x3072 (ix2 0 c) (ix1 c) (by
    rw [Shape.rowMajor_val_one, Shape.rowMajor_val_two]
    show c.val = 0 * 3072 + c.val
    omega)]
  match k, hc with
  | 0, hc =>
    exact concatenate_apply_piece (t := S3072) (0 : Fin 1) [⟨S1024, x1⟩, ⟨S1024, x2⟩, ⟨S1024, x3⟩] concatenates_S1024_S1024_S1024_S3072_d0 (ix1 c)
      0 (by show (0 : Nat) < 3; decide) S1024 x1 rfl rfl 0 rfl (ix1 e) (fun b hb => absurd (Subsingleton.elim _ _) hb)
      (by show 0 + e.val = c.val; omega)
  | 1, hc =>
    exact concatenate_apply_piece (t := S3072) (0 : Fin 1) [⟨S1024, x1⟩, ⟨S1024, x2⟩, ⟨S1024, x3⟩] concatenates_S1024_S1024_S1024_S3072_d0 (ix1 c)
      1 (by show (1 : Nat) < 3; decide) S1024 x2 rfl rfl 1024 (by simp) (ix1 e) (fun b hb => absurd (Subsingleton.elim _ _) hb)
      (by show 1024 + e.val = c.val; omega)
  | 2, hc =>
    exact concatenate_apply_piece (t := S3072) (0 : Fin 1) [⟨S1024, x1⟩, ⟨S1024, x2⟩, ⟨S1024, x3⟩] concatenates_S1024_S1024_S1024_S3072_d0 (ix1 c)
      2 (by show (2 : Nat) < 3; decide) S1024 x3 rfl rfl 2048 (by simp) (ix1 e) (fun b hb => absurd (Subsingleton.elim _ _) hb)
      (by show 2048 + e.val = c.val; omega)

theorem g_v4_term :
    (StableHlo.after hostOps0 W (Proc.devRef .tc main_v4) : S1x3072.Idx → EReal)
      = shapeCast S1x3072 (concatenate S3072 0
          [⟨S1024, (W (Proc.devRef .tc main_arg5) : S1024.Idx → EReal)⟩, ⟨S1024, (W (Proc.devRef .tc main_arg7) : S1024.Idx → EReal)⟩,
           ⟨S1024, (W (Proc.devRef .tc main_arg9) : S1024.Idx → EReal)⟩]
          concatenates_S1024_S1024_S1024_S3072_d0) shapeCasts_S3072_S1x3072 := by
  simp only [hostOps0]; after_results <;> rfl

theorem g_v4_q (e : Fin 1024) :
    (StableHlo.after hostOps0 W (Proc.devRef .tc main_v4) : S1x3072.Idx → EReal) (ix2 0 ⟨e.val, by have := e.isLt; omega⟩)
      = (W (Proc.devRef .tc main_arg5) : S1024.Idx → EReal) (ix1 e) := by
  rw [g_v4_term]
  exact row3 _ _ _ 0 e _ rfl

theorem g_v4_k (e : Fin 1024) :
    (StableHlo.after hostOps0 W (Proc.devRef .tc main_v4) : S1x3072.Idx → EReal) (ix2 0 ⟨e.val + 1024, by have := e.isLt; omega⟩)
      = (W (Proc.devRef .tc main_arg7) : S1024.Idx → EReal) (ix1 e) := by
  rw [g_v4_term]
  exact row3 _ _ _ 1 e _ rfl

theorem g_v4_v (e : Fin 1024) :
    (StableHlo.after hostOps0 W (Proc.devRef .tc main_v4) : S1x3072.Idx → EReal) (ix2 0 ⟨e.val + 2048, by have := e.isLt; omega⟩)
      = (W (Proc.devRef .tc main_arg9) : S1024.Idx → EReal) (ix1 e) := by
  rw [g_v4_term]
  exact row3 _ _ _ 2 e _ rfl

theorem g_v22 (r : Fin 8192) (d : Fin 1024) (b : Fin 4) (s : Fin 2048) (hr : r.val = b.val * 2048 + s.val) :
    (StableHlo.after hostOps2 W (Proc.devRef .tc main_v22) : S8192x1024.Idx → EReal) (ix2 r d)
      = (W (Proc.devRef .tc main_v20) : S4x16x2048x64.Idx → EReal) (ix4 b (Cert.Spec.colHead d) s (Cert.Spec.colIn d)) := by
  have e0 : (StableHlo.after hostOps2 W (Proc.devRef .tc main_v22) : S8192x1024.Idx → EReal)
      = shapeCast S8192x1024 (transpose S4x2048x16x64 [0, 2, 1, 3] (W (Proc.devRef .tc main_v20) : S4x16x2048x64.Idx → EReal)
          transposes_S4x16x2048x64_S4x2048x16x64_0_2_1_3) shapeCasts_S4x2048x16x64_S8192x1024 := by
    simp only [hostOps2]; after_results <;> rfl
  have hd := d.isLt
  rw [e0, shapeCast_apply _ shapeCasts_S4x2048x16x64_S8192x1024 (ix2 r d) (ix4 b s (Cert.Spec.colHead d) (Cert.Spec.colIn d)) (by
    rw [Shape.rowMajor_val_four, Shape.rowMajor_val_two]
    show ((b.val * 2048 + s.val) * 16 + d.val / 64) * 64 + d.val % 64 = r.val * 1024 + d.val
    omega)]
  exact transpose_apply [0, 2, 1, 3] _ transposes_S4x16x2048x64_S4x2048x16x64_0_2_1_3 _ _ (fun a => match a with
    | ⟨0, _⟩ => rfl
    | ⟨1, _⟩ => rfl
    | ⟨2, _⟩ => rfl
    | ⟨3, _⟩ => rfl)

theorem heads_apply (x : S8192x1024.Idx → EReal) (b : Fin 4) (h : Fin 16) (s : Fin 2048) (j : Fin 64) (r : Fin 8192)
    (hr : r.val = b.val * 2048 + s.val) :
    transpose S4x16x2048x64 [0, 2, 1, 3] (shapeCast S4x2048x16x64 x shapeCasts_S8192x1024_S4x2048x16x64)
        transposes_S4x2048x16x64_S4x16x2048x64_0_2_1_3 (ix4 b h s j)
      = x (ix2 r (Cert.Spec.headCol h j)) := by
  rw [transpose_apply [0, 2, 1, 3] _ transposes_S4x2048x16x64_S4x16x2048x64_0_2_1_3 (ix4 b h s j) (ix4 b s h j) (fun a => match a with
    | ⟨0, _⟩ => rfl
    | ⟨1, _⟩ => rfl
    | ⟨2, _⟩ => rfl
    | ⟨3, _⟩ => rfl)]
  exact shapeCast_apply _ shapeCasts_S8192x1024_S4x2048x16x64 _ _ (by
    rw [Shape.rowMajor_val_two, Shape.rowMajor_val_four]
    show r.val * 1024 + (h.val * 64 + j.val) = ((b.val * 2048 + s.val) * 16 + h.val) * 64 + j.val
    omega)

theorem g_v8 (b : Fin 4) (h : Fin 16) (s : Fin 2048) (j : Fin 64) (r : Fin 8192) (hr : r.val = b.val * 2048 + s.val) :
    (StableHlo.after hostOps1 W (Proc.devRef .tc main_v8) : S4x16x2048x64.Idx → EReal) (ix4 b h s j)
      = (W (Proc.devRef .tc main_v6_0) : S8192x1024.Idx → EReal) (ix2 r (Cert.Spec.headCol h j)) := by
  have e0 : (StableHlo.after hostOps1 W (Proc.devRef .tc main_v8) : S4x16x2048x64.Idx → EReal)
      = transpose S4x16x2048x64 [0, 2, 1, 3] (shapeCast S4x2048x16x64 (W (Proc.devRef .tc main_v6_0) : S8192x1024.Idx → EReal)
          shapeCasts_S8192x1024_S4x2048x16x64) transposes_S4x2048x16x64_S4x16x2048x64_0_2_1_3 := by
    simp only [hostOps1]; after_results <;> rfl
  rw [e0]; exact heads_apply _ b h s j r hr

theorem g_v10 (b : Fin 4) (h : Fin 16) (s : Fin 2048) (j : Fin 64) (r : Fin 8192) (hr : r.val = b.val * 2048 + s.val) :
    (StableHlo.after hostOps1 W (Proc.devRef .tc main_v10) : S4x16x2048x64.Idx → EReal) (ix4 b h s j)
      = (W (Proc.devRef .tc main_v6_1) : S8192x1024.Idx → EReal) (ix2 r (Cert.Spec.headCol h j)) := by
  have e0 : (StableHlo.after hostOps1 W (Proc.devRef .tc main_v10) : S4x16x2048x64.Idx → EReal)
      = transpose S4x16x2048x64 [0, 2, 1, 3] (shapeCast S4x2048x16x64 (W (Proc.devRef .tc main_v6_1) : S8192x1024.Idx → EReal)
          shapeCasts_S8192x1024_S4x2048x16x64) transposes_S4x2048x16x64_S4x16x2048x64_0_2_1_3 := by
    simp only [hostOps1]; after_results <;> rfl
  rw [e0]; exact heads_apply _ b h s j r hr

theorem g_v12 (b : Fin 4) (h : Fin 16) (s : Fin 2048) (j : Fin 64) (r : Fin 8192) (hr : r.val = b.val * 2048 + s.val) :
    (StableHlo.after hostOps1 W (Proc.devRef .tc main_v12) : S4x16x2048x64.Idx → EReal) (ix4 b h s j)
      = (W (Proc.devRef .tc main_v6_2) : S8192x1024.Idx → EReal) (ix2 r (Cert.Spec.headCol h j)) := by
  have e0 : (StableHlo.after hostOps1 W (Proc.devRef .tc main_v12) : S4x16x2048x64.Idx → EReal)
      = transpose S4x16x2048x64 [0, 2, 1, 3] (shapeCast S4x2048x16x64 (W (Proc.devRef .tc main_v6_2) : S8192x1024.Idx → EReal)
          shapeCasts_S8192x1024_S4x2048x16x64) transposes_S4x2048x16x64_S4x16x2048x64_0_2_1_3 := by
    simp only [hostOps1]; after_results <;> rfl
  rw [e0]; exact heads_apply _ b h s j r hr

theorem g_v13 (s : Fin 2048) (j : Fin 64) :
    (StableHlo.after hostOps1 W (Proc.devRef .tc main_v13) : S2048x64.Idx → EReal) (ix2 s j)
      = (W (Proc.devRef .tc main_arg1) : S1x1x2048x64.Idx → EReal) (ix4 0 0 s j) := by
  have e0 : (StableHlo.after hostOps1 W (Proc.devRef .tc main_v13) : S2048x64.Idx → EReal)
      = shapeCast S2048x64 (W (Proc.devRef .tc main_arg1) : S1x1x2048x64.Idx → EReal) shapeCasts_S1x1x2048x64_S2048x64 := by
    simp only [hostOps1]; after_results <;> rfl
  rw [e0]
  exact shapeCast_apply _ shapeCasts_S1x1x2048x64_S2048x64 _ _ (by
    rw [Shape.rowMajor_val_four, Shape.rowMajor_val_two]
    show ((0 * 1 + 0) * 2048 + s.val) * 64 + j.val = s.val * 64 + j.val
    omega)

theorem g_v14 (s : Fin 2048) (j : Fin 64) :
    (StableHlo.after hostOps1 W (Proc.devRef .tc main_v14) : S2048x64.Idx → EReal) (ix2 s j)
      = (W (Proc.devRef .tc main_arg2) : S1x1x2048x64.Idx → EReal) (ix4 0 0 s j) := by
  have e0 : (StableHlo.after hostOps1 W (Proc.devRef .tc main_v14) : S2048x64.Idx → EReal)
      = shapeCast S2048x64 (W (Proc.devRef .tc main_arg2) : S1x1x2048x64.Idx → EReal) shapeCasts_S1x1x2048x64_S2048x64 := by
    simp only [hostOps1]; after_results <;> rfl
  rw [e0]
  exact shapeCast_apply _ shapeCasts_S1x1x2048x64_S2048x64 _ _ (by
    rw [Shape.rowMajor_val_four, Shape.rowMajor_val_two]
    show ((0 * 1 + 0) * 2048 + s.val) * 64 + j.val = s.val * 64 + j.val
    omega)

theorem g_v19 (b : Fin 4) (k : Fin 2048) :
    (StableHlo.after hostOps1 W (Proc.devRef .tc main_v19) : S4x1x2048.Idx → EReal) (ix3 b 0 k)
      = Cert.Spec.maskBias (W (Proc.devRef .tc main_arg3) : S4x2048.Idx → EReal) b k := by
  have e0 : (StableHlo.after hostOps1 W (Proc.devRef .tc main_v19) : S4x1x2048.Idx → EReal)
      = broadcastInDim S4x1x2048 ![0, 2] bcast_S4x2048_S4x1x2048_0_2
          (mulf (subf (broadcastInDim S4x2048 ![] bcast_S_S4x2048 (constant (F := Ideal) S_ .f32 0x3F800000#32))
              (W (Proc.devRef .tc main_arg3) : S4x2048.Idx → EReal))
            (broadcastInDim S4x2048 ![] bcast_S_S4x2048 (constant (F := Ideal) S_ .f32 0xCE6E6B28#32))) := by
    simp only [hostOps1]; after_results <;> rfl
  rw [e0, broadcastInDim_apply _ bcast_S4x2048_S4x1x2048_0_2 _ (ix3 b 0 k) (ix2 b k) (fun a => match a with
    | ⟨0, _⟩ => by show b.val = if (4 : Nat) = 1 then 0 else b.val; rw [if_neg (by decide)]
    | ⟨1, _⟩ => by show k.val = if (2048 : Nat) = 1 then 0 else k.val; rw [if_neg (by decide)]),
    mulf_apply, subf_apply,
    broadcastInDim_apply _ bcast_S_S4x2048 (constant (F := Ideal) S_ .f32 0x3F800000#32) (ix2 b k) ix0 (fun a => a.elim0),
    broadcastInDim_apply _ bcast_S_S4x2048 (constant (F := Ideal) S_ .f32 0xCE6E6B28#32) (ix2 b k) ix0 (fun a => a.elim0),
    constant_apply, constant_apply]
  rfl

theorem g_v27 (b : Fin 4) (s : Fin 2048) (e : Fin 1024) (r : Fin 8192) (hr : r.val = b.val * 2048 + s.val) :
    (StableHlo.after hostOps3 W (Proc.devRef .tc main_v27) : S4x2048x1024.Idx → EReal) (ix3 b s e)
      = (W (Proc.devRef .tc main_v26) : S8192x1024.Idx → EReal) (ix2 r e) := by
  have e0 : (StableHlo.after hostOps3 W (Proc.devRef .tc main_v27) : S4x2048x1024.Idx → EReal)
      = shapeCast S4x2048x1024 (W (Proc.devRef .tc main_v26) : S8192x1024.Idx → EReal) shapeCasts_S8192x1024_S4x2048x1024 := by
    simp only [hostOps3]; after_results <;> rfl
  rw [e0]
  exact shapeCast_apply _ shapeCasts_S8192x1024_S4x2048x1024 _ _ (by
    rw [Shape.rowMajor_val_two, Shape.rowMajor_val_three]
    show r.val * 1024 + e.val = (b.val * 2048 + s.val) * 1024 + e.val
    rw [hr])

theorem g_v24 (d e : Fin 1024) :
    (StableHlo.after hostOps2 W (Proc.devRef .tc main_v24) : S1024x1024.Idx → EReal) (ix2 d e)
      = (W (Proc.devRef .tc main_arg10) : S1024x1024.Idx → EReal) (ix2 e d) := by
  have e0 : (StableHlo.after hostOps2 W (Proc.devRef .tc main_v24) : S1024x1024.Idx → EReal)
      = (truncf (F := Ideal) (φ := .f32) .bf16 (transpose S1024x1024 [1, 0] (W (Proc.devRef .tc main_arg10) : S1024x1024.Idx → EReal) transposes_S1024x1024_S1024x1024_1_0) bitsLt_bf16_f32 : S1024x1024.Idx → EReal) := by
    simp only [hostOps2]; after_results <;> rfl
  rw [e0, truncf_apply]
  exact transpose_apply [1, 0] _ transposes_S1024x1024_S1024x1024_1_0 _ _ (fun a => match a with
    | ⟨0, _⟩ => rfl
    | ⟨1, _⟩ => rfl)

theorem g_v25 (e : Fin 1024) :
    (StableHlo.after hostOps2 W (Proc.devRef .tc main_v25) : S1x1024.Idx → EReal) (ix2 0 e)
      = (W (Proc.devRef .tc main_arg11) : S1024.Idx → EReal) (ix1 e) := by
  have e0 : (StableHlo.after hostOps2 W (Proc.devRef .tc main_v25) : S1x1024.Idx → EReal)
      = shapeCast S1x1024 (W (Proc.devRef .tc main_arg11) : S1024.Idx → EReal) shapeCasts_S1024_S1x1024 := by
    simp only [hostOps2]; after_results <;> rfl
  rw [e0]
  exact shapeCast_apply _ shapeCasts_S1024_S1x1024 _ _ (by
    rw [Shape.rowMajor_val_one, Shape.rowMajor_val_two]
    show e.val = 0 * 1024 + e.val
    omega)

end Cert.KernelIdeal.Glue

end
-- ==== Proof.Val0.lean ====
import proofs.«406353_j58076547776991_3_alg».proof.Proof.R0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by
  match a with
  | ⟨0, _⟩ => rfl
  | ⟨1, _⟩ => rfl

abbrev qkvX (c : Dev nD) : S8192x1024.Idx → EReal := V c main_v5
abbrev qkvW (c : Dev nD) : S1024x3072.Idx → EReal := V c main_v2
abbrev qkvB (c : Dev nD) : S1x3072.Idx → EReal := V c main_v4

theorem qkv_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem qkv_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem qkv_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem qkv_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

theorem qkv_matmul_apply (a : FVec Ideal S512x1024 .bf16) (b : FVec Ideal S1024x3072 .bf16) (p : Fin 512) (q : Fin 3072) :
    matmul (F := Ideal) dot_S512x1024_S1024x3072_S512x3072_1_0_0_1_n_n none a b (constant S512x3072 .f32 0x00000000#32) (ix2 p q)
      = ∑ d : Fin 1024, a (ix2 p d) * b (ix2 d q) := by
  simp only [matmul]
  rw [Ideal.matmul_constant_zero_apply, ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 p q) ((ValueIdx.contrEquiv1 dot_S512x1024_S1024x3072_S512x3072_1_0_0_1_n_n 1024 rfl rfl).symm k) = ix2 p k := funext fun a => Fin.ext (by
    match a with
    | ⟨0, _⟩ => exact qkv_lhs_0 _ _
    | ⟨1, _⟩ => exact (qkv_lhs_1 _ _).trans hk)
  have er : dot_S512x1024_S1024x3072_S512x3072_1_0_0_1_n_n.rhsIdx (ix2 p q) ((ValueIdx.contrEquiv1 dot_S512x1024_S1024x3072_S512x3072_1_0_0_1_n_n 1024 rfl rfl).symm k) = ix2 k q := funext fun a => Fin.ext (by
    match a with
    | ⟨0, _⟩ => exact (qkv_rhs_0 _ _).trans hk
    | ⟨1, _⟩ => exact qkv_rhs_1 _ _)
  rw [el, er]

theorem k0_pay1_apply (x0 : FVec Ideal S512x1024 .f32) (x1 : FVec Ideal S1024x3072 .bf16) (x2 : FVec Ideal S1x3072 .f32)
    (p : Fin 512) (q : Fin 3072) :
    k0_pay1 (F := Ideal) x0 x1 x2 (ix2 p q) = (∑ d : Fin 1024, x0 (ix2 p d) * x1 (ix2 d q)) + x2 (ix2 (0 : Fin 1) q) := by
  unfold k0_pay1
  simp only [shapeCast_self]
  rw [addf_apply, qkv_matmul_apply, broadcastTo_1b_ab_apply]
  rfl

theorem k0_pay2_apply (x0 : FVec Ideal S512x1024 .f32) (x1 : FVec Ideal S1024x3072 .bf16) (x2 : FVec Ideal S1x3072 .f32)
    (p : Fin 512) (e : Fin 1024) :
    k0_pay2 (F := Ideal) x0 x1 x2 (ix2 p e)
      = (∑ d : Fin 1024, x0 (ix2 p d) * x1 (ix2 d ⟨e.val + 0, by omega⟩)) + x2 (ix2 (0 : Fin 1) ⟨e.val + 0, by omega⟩) := by
  unfold k0_pay2
  rw [truncf_apply, slice2_axis1_apply 0 _ _ p e ⟨e.val + 0, by omega⟩ (by show e.val + 0 = 0 + e.val; omega), k0_pay1_apply]
theorem k0_pay3_apply (x0 : FVec Ideal S512x1024 .f32) (x1 : FVec Ideal S1024x3072 .bf16) (x2 : FVec Ideal S1x3072 .f32)
    (p : Fin 512) (e : Fin 1024) :
    k0_pay3 (F := Ideal) x0 x1 x2 (ix2 p e)
      = (∑ d : Fin 1024, x0 (ix2 p d) * x1 (ix2 d ⟨e.val + 1024, by omega⟩)) + x2 (ix2 (0 : Fin 1) ⟨e.val + 1024, by omega⟩) := by
  unfold k0_pay3
  rw [truncf_apply, slice2_axis1_apply 1024 _ _ p e ⟨e.val + 1024, by omega⟩ (by show e.val + 1024 = 1024 + e.val; omega), k0_pay1_apply]
theorem k0_pay4_apply (x0 : FVec Ideal S512x1024 .f32) (x1 : FVec Ideal S1024x3072 .bf16) (x2 : FVec Ideal S1x3072 .f32)
    (p : Fin 512) (e : Fin 1024) :
    k0_pay4 (F := Ideal) x0 x1 x2 (ix2 p e)
      = (∑ d : Fin 1024, x0 (ix2 p d) * x1 (ix2 d ⟨e.val + 2048, by omega⟩)) + x2 (ix2 (0 : Fin 1) ⟨e.val + 2048, by omega⟩) := by
  unfold k0_pay4
  rw [truncf_apply, slice2_axis1_apply 2048 _ _ p e ⟨e.val + 2048, by omega⟩ (by show e.val + 2048 = 2048 + e.val; omega), k0_pay1_apply]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem iblk0_0_apply (c : Dev nD) (t : Fin cfg0.N) (p : Fin 512) (d : Fin 1024) (k : Fin 8192) (hk : k.val = 512 * t.val + p.val) :
    (iblk0 V c 0 t : S512x1024.Idx → EReal) (ix2 p d) = (V c main_v5 : S8192x1024.Idx → EReal) (ix2 k d) := by
  obtain ⟨e0, e1, -⟩ := idx_facts0 t
  unfold iblk0
  rw [View.read_apply]
  show V c main_v5 _ = V c main_v5 _
  congr 1
  funext a
  apply Fin.ext
  match a with
  | ⟨0, _⟩ => show win0_0.index t (0 : Fin 2) * 512 + 1 * p.val = k.val; rw [e0, hk]; omega
  | ⟨1, _⟩ => show win0_0.index t (1 : Fin 2) * 1024 + 1 * d.val = d.val; rw [e1]; omega

theorem iblk0_1_apply (c : Dev nD) (t : Fin cfg0.N) (d : Fin 1024) (q : Fin 3072) :
    (iblk0 V c 1 t : S1024x3072.Idx → EReal) (ix2 d q) = (V c main_v2 : S1024x3072.Idx → EReal) (ix2 d q) := by
  obtain ⟨-, -, e2, e3, -⟩ := idx_facts0 t
  unfold iblk0
  rw [View.read_apply]
  show V c main_v2 _ = V c main_v2 _
  congr 1
  funext a
  apply Fin.ext
  match a with
  | ⟨0, _⟩ => show win0_1.index t (0 : Fin 2) * 1024 + 1 * d.val = d.val; rw [e2]; omega
  | ⟨1, _⟩ => show win0_1.index t (1 : Fin 2) * 3072 + 1 * q.val = q.val; rw [e3]; omega

theorem iblk0_2_apply (c : Dev nD) (t : Fin cfg0.N) (z : Fin 1) (q : Fin 3072) :
    (iblk0 V c 2 t : S1x3072.Idx → EReal) (ix2 z q) = (V c main_v4 : S1x3072.Idx → EReal) (ix2 z q) := by
  obtain ⟨-, -, -, -, e4, e5, -⟩ := idx_facts0 t
  unfold iblk0
  rw [View.read_apply]
  show V c main_v4 _ = V c main_v4 _
  congr 1
  funext a
  apply Fin.ext
  match a with
  | ⟨0, _⟩ => show win0_2.index t (0 : Fin 2) * 1 + 1 * z.val = z.val; rw [e4]; omega
  | ⟨1, _⟩ => show win0_2.index t (1 : Fin 2) * 3072 + 1 * q.val = q.val; rw [e5]; omega

def qkvAt (o : Nat) (ho : o + 1024 ≤ 3072) (X : S8192x1024.Idx → EReal) (W : S1024x3072.Idx → EReal) (B : S1x3072.Idx → EReal)
    (r : Fin 8192) (e : Fin 1024) : EReal :=
  (∑ d : Fin 1024, X (ix2 r d) * W (ix2 d ⟨e.val + o, by omega⟩)) + B (ix2 (0 : Fin 1) ⟨e.val + o, by omega⟩)

def qkvCols (o : Nat) (ho : o + 1024 ≤ 3072) (X : S8192x1024.Idx → EReal) (W : S1024x3072.Idx → EReal) (B : S1x3072.Idx → EReal) :
    S8192x1024.Idx → EReal :=
  fun i => qkvAt o ho X W B ⟨(i 0).val, idx2_lt0 i⟩ ⟨(i 1).val, idx2_lt1 i⟩

theorem qkvCols_apply (o : Nat) (ho : o + 1024 ≤ 3072) (X : S8192x1024.Idx → EReal) (W : S1024x3072.Idx → EReal) (B : S1x3072.Idx → EReal)
    (i : S8192x1024.Idx) (r : Fin 8192) (e : Fin 1024) (h0 : (i 0).val = r.val) (h1 : (i 1).val = e.val) :
    qkvCols o ho X W B i = qkvAt o ho X W B r e := by
  unfold qkvCols
  congr 1 <;> exact Fin.ext (by assumption)

theorem flushed0_3_eq (c : Dev nD) (t : Fin cfg0.N) :
    (dat0 V c).flushed 3 t = ((cfg0.win 3).blk t).view.read (Elt Ideal) (qkvCols 0 (by omega) (V c main_v5) (V c main_v2) (V c main_v4)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x3072) hz2, View.ld_unit_zero (S := S1x3072) hz2]
  obtain ⟨-, -, -, -, -, -, e6, e7, e8, e9, e10, e11⟩ := idx_facts0 t
  have hN : cfg0.N = 16 := N_0
  have ht : t.val < cfg0.N := t.isLt
  funext j
  obtain ⟨p, q, rfl⟩ : ∃ (p : Fin 512) (q : Fin 1024), j = ix2 p q := ⟨j 0, j 1, eq_ix2 j⟩
  have hp : p.val < 512 := p.isLt
  have hq : q.val < 1024 := q.isLt
  rw [View.read_apply]
  refine (k0_pay2_apply _ _ _ p q).trans ?_
  refine Eq.trans ?_ (qkvCols_apply 0 (by omega) _ _ _ _ ⟨512 * t.val + p.val, by omega⟩ q ?_ ?_).symm
  · unfold qkvAt
    exact congrArg₂ (· + ·) (Finset.sum_congr rfl fun d _ => congrArg₂ (· * ·) (iblk0_0_apply V c t p d _ rfl) (iblk0_1_apply V c t d _))
      (iblk0_2_apply V c t 0 _)
  · show win0_3.index t (0 : Fin 2) * 512 + 1 * p.val = 512 * t.val + p.val
    rw [e6]; omega
  · show win0_3.index t (1 : Fin 2) * 1024 + 1 * q.val = q.val
    rw [e7]; omega

theorem mem_blk0_3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v6_0).slice (win0_3.rect t)).set ↔ _
  rw [View.set_slice_whole, Rect.mem_set_unit]
  exact Iff.rfl

theorem cover0_3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  have hv : (⟨(i 0).val / 512, by rw [hN]; omega⟩ : Fin cfg0.N).val = (i 0).val / 512 := rfl
  obtain ⟨-, -, -, -, -, -, e6, e7, e8, e9, e10, e11⟩ := idx_facts0 ⟨(i 0).val / 512, by rw [hN]; omega⟩
  refine ⟨⟨(i 0).val / 512, by rw [hN]; omega⟩, flush0_3 _, ?_⟩
  rw [mem_blk0_3]
  intro a
  match a with
  | ⟨0, _⟩ =>
    show win0_3.index _ (0 : Fin 2) * 512 ≤ (i 0).val ∧ (i 0).val < win0_3.index _ (0 : Fin 2) * 512 + 512
    rw [e6, hv]; omega
  | ⟨1, _⟩ =>
    show win0_3.index _ (1 : Fin 2) * 1024 ≤ (i 1).val ∧ (i 1).val < win0_3.index _ (1 : Fin 2) * 1024 + 1024
    rw [e7]; omega

theorem final0_3 (c : Dev nD) (r : Fin 8192) (e : Fin 1024) :
    ((dat0 V c).arrAt 3 cfg0.N : S8192x1024.Idx → EReal) (ix2 r e)
      = (∑ d : Fin 1024, qkvX V c (ix2 r d) * qkvW V c (ix2 d ⟨e.val + 0, by omega⟩)) + qkvB V c (ix2 (0 : Fin 1) ⟨e.val + 0, by omega⟩) := by
  rw [(dat0 V c).arrAt_eq_of_cover 3 (qkvCols 0 (by omega) (V c main_v5) (V c main_v2) (V c main_v4)) (fun t _ => flushed0_3_eq V c t) cover0_3]
  rfl

theorem flushed0_4_eq (c : Dev nD) (t : Fin cfg0.N) :
    (dat0 V c).flushed 4 t = ((cfg0.win 4).blk t).view.read (Elt Ideal) (qkvCols 1024 (by omega) (V c main_v5) (V c main_v2) (V c main_v4)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S1024x3072) hz2, View.ld_unit_zero (S := S1x3072) hz2]
  obtain ⟨-, -, -, -, -, -, e6, e7, e8, e9, e10, e11⟩ := idx_facts0 t
  have hN : cfg0.N = 16 := N_0
  have ht : t.val < cfg0.N := t.isLt
  funext j
  obtain ⟨p, q, rfl⟩ : ∃ (p : Fin 512) (q : Fin 1024), j = ix2 p q := ⟨j 0, j 1, eq_ix2 j⟩
  have hp : p.val < 512 := p.isLt
  have hq : q.val < 1024 := q.isLt
  rw [View.read_apply]
  refine (k0_pay3_apply _ _ _ p q).trans ?_
  refine Eq.trans ?_ (qkvCols_apply 1024 (by omega) _ _ _ _ ⟨512 * t.val + p.val, by omega⟩ q ?_ ?_).symm
  · unfold qkvAt
    exact congrArg₂ (· + ·) (Finset.sum_congr rfl fun d _ => congrArg₂ (· * ·) (iblk0_0_apply V c t p d _ rfl) (iblk0_1_apply V c t d _))
      (iblk0_2_apply V c t 0 _)
  · show win0_4.index t (0 : Fin 2) * 512 + 1 * p.val = 512 * t.val + p.val
    rw [e8]; omega
  · show win0_4.index t (1 : Fin 2) * 1024 + 1 * q.val = q.val
    rw [e9]; omega

theorem mem_blk0_4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v6_1).slice (win0_4.rect t)).set ↔ _
  rw [View.set_slice_whole, Rect.mem_set_unit]
  exact Iff.rfl

theorem cover0_4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  have hv : (⟨(i 0).val / 512, by rw [hN]; omega⟩ : Fin cfg0.N).val = (i 0).val / 512 := rfl
  obtain ⟨-, -, -, -, -, -, e6, e7, e8, e9, e10, e11⟩ := idx_facts0 ⟨(i 0).val / 512, by rw [hN]; omega⟩
  refine ⟨⟨(i 0).val / 512, by rw [hN]; omega⟩, flush0_4 _, ?_⟩
  rw [mem_blk0_4]
  intro a
  match a with
  | ⟨0, _⟩ =>
    show win0_4.index _ (0 : Fin 2) * 512 ≤ (i 0).val ∧ (i 0).val < win0_4.index _ (0 : Fin 2) * 512 + 512
    rw [e8, hv]; omega
  | ⟨1, _⟩ =>
    show win0_4.index _ (1 : Fin 2) * 1024 ≤ (i 1).val ∧ (i 1).val < win0_4.index _ (1 : Fin 2) * 1024 + 1024
    rw [e9]; omega

theorem final0_4 (c : Dev nD) (r : Fin 8192) (e : Fin 1024) :
    ((dat0 V c).arrAt 4 cfg0.N : S8192x1024.Idx → EReal) (ix2 r e)
      = (∑ d : Fin 1024, qkvX V c (ix2 r d) * qkvW V c (ix2 d ⟨e.val + 1024, by omega⟩)) + qkvB V c (ix2 (0 : Fin 1) ⟨e.val + 1024, by omega⟩) := by
  rw [(dat0 V c).arrAt_eq_of_cover 4 (qkvCols 1024 (by omega) (V c main_v5) (V c main_v2) (V c main_v4)) (fun t _ => flushed0_4_eq V c t) cover0_4]
  rfl

theorem flushed0_5_eq (c : Dev nD) (t : Fin cfg0.N) :
    (dat0 V c).flushed 5 t = ((cfg0.win 5).blk t).view.read (Elt Ideal) (qkvCols 2048 (by omega) (V c main_v5) (V c main_v2) (V c main_v4)) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S1024x3072) hz2, View.ld_unit_zero (S := S1x3072) hz2]
  obtain ⟨-, -, -, -, -, -, e6, e7, e8, e9, e10, e11⟩ := idx_facts0 t
  have hN : cfg0.N = 16 := N_0
  have ht : t.val < cfg0.N := t.isLt
  funext j
  obtain ⟨p, q, rfl⟩ : ∃ (p : Fin 512) (q : Fin 1024), j = ix2 p q := ⟨j 0, j 1, eq_ix2 j⟩
  have hp : p.val < 512 := p.isLt
  have hq : q.val < 1024 := q.isLt
  rw [View.read_apply]
  refine (k0_pay4_apply _ _ _ p q).trans ?_
  refine Eq.trans ?_ (qkvCols_apply 2048 (by omega) _ _ _ _ ⟨512 * t.val + p.val, by omega⟩ q ?_ ?_).symm
  · unfold qkvAt
    exact congrArg₂ (· + ·) (Finset.sum_congr rfl fun d _ => congrArg₂ (· * ·) (iblk0_0_apply V c t p d _ rfl) (iblk0_1_apply V c t d _))
      (iblk0_2_apply V c t 0 _)
  · show win0_5.index t (0 : Fin 2) * 512 + 1 * p.val = 512 * t.val + p.val
    rw [e10]; omega
  · show win0_5.index t (1 : Fin 2) * 1024 + 1 * q.val = q.val
    rw [e11]; omega

theorem mem_blk0_5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6_2).slice (win0_5.rect t)).set ↔ _
  rw [View.set_slice_whole, Rect.mem_set_unit]
  exact Iff.rfl

theorem cover0_5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  have hv : (⟨(i 0).val / 512, by rw [hN]; omega⟩ : Fin cfg0.N).val = (i 0).val / 512 := rfl
  obtain ⟨-, -, -, -, -, -, e6, e7, e8, e9, e10, e11⟩ := idx_facts0 ⟨(i 0).val / 512, by rw [hN]; omega⟩
  refine ⟨⟨(i 0).val / 512, by rw [hN]; omega⟩, flush0_5 _, ?_⟩
  rw [mem_blk0_5]
  intro a
  match a with
  | ⟨0, _⟩ =>
    show win0_5.index _ (0 : Fin 2) * 512 ≤ (i 0).val ∧ (i 0).val < win0_5.index _ (0 : Fin 2) * 512 + 512
    rw [e10, hv]; omega
  | ⟨1, _⟩ =>
    show win0_5.index _ (1 : Fin 2) * 1024 ≤ (i 1).val ∧ (i 1).val < win0_5.index _ (1 : Fin 2) * 1024 + 1024
    rw [e11]; omega

theorem final0_5 (c : Dev nD) (r : Fin 8192) (e : Fin 1024) :
    ((dat0 V c).arrAt 5 cfg0.N : S8192x1024.Idx → EReal) (ix2 r e)
      = (∑ d : Fin 1024, qkvX V c (ix2 r d) * qkvW V c (ix2 d ⟨e.val + 2048, by omega⟩)) + qkvB V c (ix2 (0 : Fin 1) ⟨e.val + 2048, by omega⟩) := by
  rw [(dat0 V c).arrAt_eq_of_cover 5 (qkvCols 2048 (by omega) (V c main_v5) (V c main_v2) (V c main_v4)) (fun t _ => flushed0_5_eq V c t) cover0_5]
  rfl

end Cert.KernelIdeal.Gen

end
-- ==== Proof.KHead.lean ====
import proofs.«406353_j58076547776991_3_alg».proof.Proof.Run
import proofs.«406353_j58076547776991_3_alg».proof.Proof.HostGlue
import proofs.«406353_j58076547776991_3_alg».proof.Proof.Val0
import proofs.«406353_j58076547776991_3_alg».proof.Proof.Spec
import proofs.«406353_j58076547776991_3_alg».proof.Proof.KArgs

noncomputable section

namespace Cert.KernelIdeal.Gen

open Idealize.ShloMosaic Idealize.ShloMosaic.TcCoe Idealize.SL.Sem Idealize.ShloMosaic.ValueIdx
open Cert.KernelIdeal.Glue

variable (m : (ℓ : Loc nD τ sig) → Buf (Elt Ideal) ℓ)

def rowOf (b : Fin 4) (s : Fin 2048) : Fin 8192 := ⟨b.val * 2048 + s.val, by have := b.isLt; have := s.isLt; omega⟩

theorem h0_keeps_cos (W : Valuation τ sig (Elt Ideal)) :
    StableHlo.after hostOps0 W (Proc.devRef .tc main_arg1) = W (Proc.devRef .tc main_arg1) := by
  simp only [hostOps0]; after_results <;> rfl
theorem h0_keeps_sin (W : Valuation τ sig (Elt Ideal)) :
    StableHlo.after hostOps0 W (Proc.devRef .tc main_arg2) = W (Proc.devRef .tc main_arg2) := by
  simp only [hostOps0]; after_results <;> rfl
theorem h0_keeps_mask (W : Valuation τ sig (Elt Ideal)) :
    StableHlo.after hostOps0 W (Proc.devRef .tc main_arg3) = W (Proc.devRef .tc main_arg3) := by
  simp only [hostOps0]; after_results <;> rfl

theorem kh_q (c : Dev nD) (b : Fin 4) (h : Fin 16) (s : Fin 2048) (j : Fin 64) :
    (W3 m c (Proc.devRef .tc main_v8) : S4x16x2048x64.Idx → EReal) (ix4 b h s j)
      = Cert.Spec.proj (aX m c) (aQw m c) (aQb m c) b h s j := by
  have e2 : (W2 m c (Proc.devRef .tc (Pipeline.arrRef spec0 3)) : S8192x1024.Idx → EReal) = (dat0 (V1 m) c).arrAt 3 cfg0.N := W2_arr m c 3
  refine (g_v8 (W2 m c) b h s j (rowOf b s) rfl).trans ?_
  refine (congrFun e2 _).trans ?_
  refine (final0_3 (V1 m) c (rowOf b s) (Cert.Spec.headCol h j)).trans ?_
  unfold Cert.Spec.proj
  refine congrArg₂ (· + ·) (Finset.sum_congr rfl fun d _ => ?_) ?_
  · exact congrArg₂ (· * ·) (g_v5 (W0 m c) (rowOf b s) d b s rfl) (g_v2_q (W0 m c) d (Cert.Spec.headCol h j))
  · exact g_v4_q (W0 m c) (Cert.Spec.headCol h j)

theorem kh_k (c : Dev nD) (b : Fin 4) (h : Fin 16) (s : Fin 2048) (j : Fin 64) :
    (W3 m c (Proc.devRef .tc main_v10) : S4x16x2048x64.Idx → EReal) (ix4 b h s j)
      = Cert.Spec.proj (aX m c) (aKw m c) (aKb m c) b h s j := by
  have e2 : (W2 m c (Proc.devRef .tc (Pipeline.arrRef spec0 4)) : S8192x1024.Idx → EReal) = (dat0 (V1 m) c).arrAt 4 cfg0.N := W2_arr m c 4
  refine (g_v10 (W2 m c) b h s j (rowOf b s) rfl).trans ?_
  refine (congrFun e2 _).trans ?_
  refine (final0_4 (V1 m) c (rowOf b s) (Cert.Spec.headCol h j)).trans ?_
  unfold Cert.Spec.proj
  refine congrArg₂ (· + ·) (Finset.sum_congr rfl fun d _ => ?_) ?_
  · exact congrArg₂ (· * ·) (g_v5 (W0 m c) (rowOf b s) d b s rfl) (g_v2_k (W0 m c) d (Cert.Spec.headCol h j))
  · exact g_v4_k (W0 m c) (Cert.Spec.headCol h j)

theorem kh_v (c : Dev nD) (b : Fin 4) (h : Fin 16) (s : Fin 2048) (j : Fin 64) :
    (W3 m c (Proc.devRef .tc main_v12) : S4x16x2048x64.Idx → EReal) (ix4 b h s j)
      = Cert.Spec.proj (aX m c) (aVw m c) (aVb m c) b h s j := by
  have e2 : (W2 m c (Proc.devRef .tc (Pipeline.arrRef spec0 5)) : S8192x1024.Idx → EReal) = (dat0 (V1 m) c).arrAt 5 cfg0.N := W2_arr m c 5
  refine (g_v12 (W2 m c) b h s j (rowOf b s) rfl).trans ?_
  refine (congrFun e2 _).trans ?_
  refine (final0_5 (V1 m) c (rowOf b s) (Cert.Spec.headCol h j)).trans ?_
  unfold Cert.Spec.proj
  refine congrArg₂ (· + ·) (Finset.sum_congr rfl fun d _ => ?_) ?_
  · exact congrArg₂ (· * ·) (g_v5 (W0 m c) (rowOf b s) d b s rfl) (g_v2_v (W0 m c) d (Cert.Spec.headCol h j))
  · exact g_v4_v (W0 m c) (Cert.Spec.headCol h j)

theorem kh_cos (c : Dev nD) (s : Fin 2048) (j : Fin 64) :
    (W3 m c (Proc.devRef .tc main_v13) : S2048x64.Idx → EReal) (ix2 s j) = aCos m c (ix4 0 0 s j) := by
  have e : (W2 m c (Proc.devRef .tc main_arg1) : S1x1x2048x64.Idx → EReal) = aCos m c :=
    (W2_of_ne m c main_arg1 (by decide)).trans (h0_keeps_cos (W0 m c))
  exact (g_v13 (W2 m c) s j).trans (congrFun e _)

theorem kh_sin (c : Dev nD) (s : Fin 2048) (j : Fin 64) :
    (W3 m c (Proc.devRef .tc main_v14) : S2048x64.Idx → EReal) (ix2 s j) = aSin m c (ix4 0 0 s j) := by
  have e : (W2 m c (Proc.devRef .tc main_arg2) : S1x1x2048x64.Idx → EReal) = aSin m c :=
    (W2_of_ne m c main_arg2 (by decide)).trans (h0_keeps_sin (W0 m c))
  exact (g_v14 (W2 m c) s j).trans (congrFun e _)

theorem kh_bias (c : Dev nD) (b : Fin 4) (k : Fin 2048) :
    (W3 m c (Proc.devRef .tc main_v19) : S4x1x2048.Idx → EReal) (ix3 b 0 k) = Cert.Spec.maskBias (aMask m c) b k := by
  have e : (W2 m c (Proc.devRef .tc main_arg3) : S4x2048.Idx → EReal) = aMask m c :=
    (W2_of_ne m c main_arg3 (by decide)).trans (h0_keeps_mask (W0 m c))
  exact (g_v19 (W2 m c) b k).trans (congrArg (fun f => Cert.Spec.maskBias f b k) e)

end Cert.KernelIdeal.Gen

end
-- ==== Proof.Val2.lean ====
import proofs.«406353_j58076547776991_3_alg».proof.Proof.R2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem lin_hz : (![0, 0] : Fin 2 → Nat) = fun _ => 0 := funext fun a => by
  match a with
  | ⟨0, _⟩ => rfl
  | ⟨1, _⟩ => rfl

abbrev linX (c : Dev nD) : S8192x1024.Idx → EReal := V c main_v22
abbrev linW (c : Dev nD) : S1024x1024.Idx → EReal := V c main_v24
abbrev linB (c : Dev nD) : S1x1024.Idx → EReal := V c main_v25

theorem lin_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lin_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem lin_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem lin_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

theorem lin_matmul_apply (a : FVec Ideal S1024x1024 .bf16) (b : FVec Ideal S1024x1024 .bf16) (p : Fin 1024) (q : Fin 1024) :
    matmul (F := Ideal) dot_S1024x1024_S1024x1024_S1024x1024_1_0_0_1_n_n none a b (constant S1024x1024 .f32 0x00000000#32) (ix2 p q)
      = ∑ d : Fin 1024, a (ix2 p d) * b (ix2 d q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lin_lhs_0 _ _
    | ⟨1, _⟩ => exact (lin_lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (lin_rhs_0 _ _).trans hk
    | ⟨1, _⟩ => exact lin_rhs_1 _ _)
  rw [el, er]

theorem k2_pay1_apply (x0 : FVec Ideal S1024x1024 .bf16) (x1 : FVec Ideal S1024x1024 .bf16) (x2 : FVec Ideal S1x1024 .f32)
    (p : Fin 1024) (q : Fin 1024) :
    k2_pay1 (F := Ideal) x0 x1 x2 (ix2 p q) = (∑ d : Fin 1024, x0 (ix2 p d) * x1 (ix2 d q)) + x2 (ix2 (0 : Fin 1) q) := by
  unfold k2_pay1
  simp only [shapeCast_self]
  rw [addf_apply, lin_matmul_apply, broadcastTo_1b_ab_apply]

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem iblk2_0_apply (c : Dev nD) (t : Fin cfg2.N) (p : Fin 1024) (d : Fin 1024) (k : Fin 8192) (hk : k.val = 1024 * t.val + p.val) :
    (iblk2 V c 0 t : S1024x1024.Idx → EReal) (ix2 p d) = (V c main_v22 : S8192x1024.Idx → EReal) (ix2 k d) := by
  obtain ⟨e0, e1, -⟩ := idx_facts2 t
  unfold iblk2
  rw [View.read_apply]
  show V c main_v22 _ = V c main_v22 _
  congr 1
  funext a
  apply Fin.ext
  match a with
  | ⟨0, _⟩ => show win2_0.index t (0 : Fin 2) * 1024 + 1 * p.val = k.val; rw [e0, hk]; omega
  | ⟨1, _⟩ => show win2_0.index t (1 : Fin 2) * 1024 + 1 * d.val = d.val; rw [e1]; omega

theorem iblk2_1_apply (c : Dev nD) (t : Fin cfg2.N) (d : Fin 1024) (q : Fin 1024) :
    (iblk2 V c 1 t : S1024x1024.Idx → EReal) (ix2 d q) = (V c main_v24 : S1024x1024.Idx → EReal) (ix2 d q) := by
  obtain ⟨-, -, e2, e3, -⟩ := idx_facts2 t
  unfold iblk2
  rw [View.read_apply]
  show V c main_v24 _ = V c main_v24 _
  congr 1
  funext a
  apply Fin.ext
  match a with
  | ⟨0, _⟩ => show win2_1.index t (0 : Fin 2) * 1024 + 1 * d.val = d.val; rw [e2]; omega
  | ⟨1, _⟩ => show win2_1.index t (1 : Fin 2) * 1024 + 1 * q.val = q.val; rw [e3]; omega

theorem iblk2_2_apply (c : Dev nD) (t : Fin cfg2.N) (z : Fin 1) (q : Fin 1024) :
    (iblk2 V c 2 t : S1x1024.Idx → EReal) (ix2 z q) = (V c main_v25 : S1x1024.Idx → EReal) (ix2 z q) := by
  obtain ⟨-, -, -, -, e4, e5, -⟩ := idx_facts2 t
  unfold iblk2
  rw [View.read_apply]
  show V c main_v25 _ = V c main_v25 _
  congr 1
  funext a
  apply Fin.ext
  match a with
  | ⟨0, _⟩ => show win2_2.index t (0 : Fin 2) * 1 + 1 * z.val = z.val; rw [e4]; omega
  | ⟨1, _⟩ => show win2_2.index t (1 : Fin 2) * 1024 + 1 * q.val = q.val; rw [e5]; omega

def linAt (X : S8192x1024.Idx → EReal) (W : S1024x1024.Idx → EReal) (B : S1x1024.Idx → EReal) (r : Fin 8192) (e : Fin 1024) : EReal :=
  (∑ d : Fin 1024, X (ix2 r d) * W (ix2 d e)) + B (ix2 (0 : Fin 1) e)

def linCols (X : S8192x1024.Idx → EReal) (W : S1024x1024.Idx → EReal) (B : S1x1024.Idx → EReal) : S8192x1024.Idx → EReal :=
  fun i => linAt X W B ⟨(i 0).val, idx2_lt0 i⟩ ⟨(i 1).val, idx2_lt1 i⟩

theorem linCols_apply (X : S8192x1024.Idx → EReal) (W : S1024x1024.Idx → EReal) (B : S1x1024.Idx → EReal)
    (i : S8192x1024.Idx) (r : Fin 8192) (e : Fin 1024) (h0 : (i 0).val = r.val) (h1 : (i 1).val = e.val) :
    linCols X W B i = linAt X W B r e := by
  unfold linCols
  congr 1 <;> exact Fin.ext (by assumption)

theorem flushed2_3_eq (c : Dev nD) (t : Fin cfg2.N) :
    (dat2 V c).flushed 3 t = ((cfg2.win 3).blk t).view.read (Elt Ideal) (linCols (V c main_v22) (V c main_v24) (V c main_v25)) := by
  show (cfg2.win 3).cut (grid2.coords t) ((dat2 V c).after 3 t) = _
  rw [after2_3]
  unfold out2_3
  rw [View.canon_unit_zero lin_hz]
  simp only [View.ld_unit_zero (S := S1024x1024) lin_hz, View.ld_unit_zero (S := S1x1024) lin_hz]
  obtain ⟨-, -, -, -, -, -, e6, e7⟩ := idx_facts2 t
  have hN : cfg2.N = 8 := N_2
  have ht : t.val < cfg2.N := t.isLt
  funext j
  obtain ⟨p, q, rfl⟩ : ∃ (p : Fin 1024) (q : Fin 1024), j = ix2 p q := ⟨j 0, j 1, eq_ix2 j⟩
  have hp : p.val < 1024 := p.isLt
  have hq : q.val < 1024 := q.isLt
  rw [View.read_apply]
  refine (k2_pay1_apply _ _ _ p q).trans ?_
  refine Eq.trans ?_ (linCols_apply _ _ _ _ ⟨1024 * t.val + p.val, by omega⟩ q ?_ ?_).symm
  · unfold linAt
    exact congrArg₂ (· + ·) (Finset.sum_congr rfl fun d _ => congrArg₂ (· * ·) (iblk2_0_apply V c t p d _ rfl) (iblk2_1_apply V c t d _))
      (iblk2_2_apply V c t 0 _)
  · show win2_3.index t (0 : Fin 2) * 1024 + 1 * p.val = 1024 * t.val + p.val
    rw [e6]; omega
  · show win2_3.index t (1 : Fin 2) * 1024 + 1 * q.val = q.val
    rw [e7]; omega

theorem mem_blk2_3 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v26).slice (win2_3.rect t)).set ↔ _
  rw [View.set_slice_whole, Rect.mem_set_unit]
  exact Iff.rfl

theorem cover2_3 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hN : cfg2.N = 8 := N_2
  have hv : (⟨(i 0).val / 1024, by rw [hN]; omega⟩ : Fin cfg2.N).val = (i 0).val / 1024 := rfl
  obtain ⟨-, -, -, -, -, -, e6, e7⟩ := idx_facts2 ⟨(i 0).val / 1024, by rw [hN]; omega⟩
  refine ⟨⟨(i 0).val / 1024, by rw [hN]; omega⟩, flush2_3 _, ?_⟩
  rw [mem_blk2_3]
  intro a
  match a with
  | ⟨0, _⟩ =>
    show win2_3.index _ (0 : Fin 2) * 1024 ≤ (i 0).val ∧ (i 0).val < win2_3.index _ (0 : Fin 2) * 1024 + 1024
    rw [e6, hv]; omega
  | ⟨1, _⟩ =>
    show win2_3.index _ (1 : Fin 2) * 1024 ≤ (i 1).val ∧ (i 1).val < win2_3.index _ (1 : Fin 2) * 1024 + 1024
    rw [e7]; omega

theorem final2_3 (c : Dev nD) (r : Fin 8192) (e : Fin 1024) :
    ((dat2 V c).arrAt 3 cfg2.N : S8192x1024.Idx → EReal) (ix2 r e)
      = (∑ d : Fin 1024, linX V c (ix2 r d) * linW V c (ix2 d e)) + linB V c (ix2 (0 : Fin 1) e) := by
  rw [(dat2 V c).arrAt_eq_of_cover 3 (linCols (V c main_v22) (V c main_v24) (V c main_v25)) (fun t _ => flushed2_3_eq V c t) cover2_3]
  rfl

end Cert.KernelIdeal.Gen

end
-- ==== Proof.KTail.lean ====
import proofs.«406353_j58076547776991_3_alg».proof.Proof.Run
import proofs.«406353_j58076547776991_3_alg».proof.Proof.HostGlue
import proofs.«406353_j58076547776991_3_alg».proof.Proof.Val2
import proofs.«406353_j58076547776991_3_alg».proof.Proof.Spec
import proofs.«406353_j58076547776991_3_alg».proof.Proof.KArgs
import proofs.«406353_j58076547776991_3_alg».proof.Proof.Kept

noncomputable section

namespace Cert.KernelIdeal.Gen

open Idealize.ShloMosaic Idealize.ShloMosaic.TcCoe Idealize.SL.Sem Idealize.ShloMosaic.ValueIdx

section AtIdeal
variable (m : (ℓ : Loc nD τ sig) → Buf (Elt Ideal) ℓ)

abbrev kAttn (c : Dev nD) : S4x16x2048x64.Idx → EReal := W4 m c (Proc.devRef .tc main_v20)

theorem W4_arg10 (c : Dev nD) : (W4 m c (Proc.devRef .tc main_arg10) : S1024x1024.Idx → EReal) = aOw m c :=
  (W4_keep m c main_arg10 (by decide) (by decide) (by decide) (by decide)).trans rfl
theorem W4_arg11 (c : Dev nD) : (W4 m c (Proc.devRef .tc main_arg11) : S1024.Idx → EReal) = aOb m c :=
  (W4_keep m c main_arg11 (by decide) (by decide) (by decide) (by decide)).trans rfl

theorem kt_out (c : Dev nD) (b : Fin 4) (s : Fin 2048) (e : Fin 1024) :
    (W7 m c (Proc.devRef .tc main_v27) : S4x2048x1024.Idx → EReal) (ix3 b s e)
      = (∑ d : Fin 1024, kAttn m c (ix4 b (Cert.Spec.colHead d) s (Cert.Spec.colIn d)) * aOw m c (ix2 e d)) + aOb m c (ix1 e) := by
  obtain ⟨r, hr⟩ : ∃ r : Fin 8192, r.val = b.val * 2048 + s.val :=
    ⟨⟨b.val * 2048 + s.val, by have := b.isLt; have := s.isLt; omega⟩, rfl⟩
  refine (Glue.g_v27 (W6 m c) b s e r hr).trans ?_
  have h26 : (W6 m c (Proc.devRef .tc main_v26) : S8192x1024.Idx → EReal)
      = ((dat2 (V5 m) c).arrAt 3 cfg2.N : S8192x1024.Idx → EReal) := W6_arr m c 3
  rw [h26, final2_3 (V5 m) c r e]
  refine congrArg₂ (· + ·) (Finset.sum_congr rfl fun d _ => congrArg₂ (· * ·) ?_ ?_) ?_
  · exact Glue.g_v22 (W4 m c) r d b s hr
  · exact (Glue.g_v24 (W4 m c) d e).trans (congrFun (W4_arg10 m c) (ix2 e d))
  · exact (Glue.g_v25 (W4 m c) e).trans (congrFun (W4_arg11 m c) (ix1 e))

theorem kt_whole (c : Dev nD) (A : Cert.Spec.H4)
    (hA : ∀ (b : Fin 4) (h : Fin 16) (q : Fin 2048) (j : Fin 64), kAttn m c (ix4 b h q j) = A b h q j) :
    (W7 m c (Proc.devRef .tc main_v27) : S4x2048x1024.Idx → EReal) = Cert.Spec.outProj A (aOw m c) (aOb m c) := by
  funext i
  obtain ⟨b, s, e, rfl⟩ : ∃ (b : Fin 4) (s : Fin 2048) (e : Fin 1024), i = ix3 b s e := ⟨i 0, i 1, i 2, eq_ix3 i⟩
  rw [kt_out]
  show _ = (∑ d : Fin 1024, A b (Cert.Spec.colHead d) s (Cert.Spec.colIn d) * aOw m c (ix2 e d)) + aOb m c (ix1 e)
  exact congrArg (· + aOb m c (ix1 e)) (Finset.sum_congr rfl fun d _ => congrArg (· * aOw m c (ix2 e d)) (hA b _ s _))

end AtIdeal

end Cert.KernelIdeal.Gen

end
-- ==== Proof.Piece1.lean ====
import proofs.«406353_j58076547776991_3_alg».proof.Proof.R1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.Sem
open Idealize.ShloMosaic.Pipeline (Dat Cfg Window)

variable {F : FTy → Type} [FloatOps F]

theorem zoff2 : (![0, 0] : Fin 2 → Nat) = fun _ => 0 := funext fun a => by
  match a with
  | ⟨0, _⟩ => rfl
  | ⟨1, _⟩ => rfl
theorem zoff3 : (![0, 0, 0] : Fin 3 → Nat) = fun _ => 0 := funext fun a => by
  match a with
  | ⟨0, _⟩ => rfl
  | ⟨1, _⟩ => rfl
  | ⟨2, _⟩ => rfl
theorem zoff4 : (![0, 0, 0, 0] : Fin 4 → Nat) = fun _ => 0 := funext fun a => by
  match a with
  | ⟨0, _⟩ => rfl
  | ⟨1, _⟩ => rfl
  | ⟨2, _⟩ => rfl
  | ⟨3, _⟩ => rfl

section
variable (c : Dev nD) (i : grid1.Coords) (arg4 : Memref sig .tc .vmem S1x1x1024x64 .bf16) (harg4 : arg4.IsWhole) (arg5 : Memref sig .tc .vmem S1x1x1024x64 .bf16) (harg5 : arg5.IsWhole) (arg6 : Memref sig .tc .vmem S1x1x1024x64 .bf16) (harg6 : arg6.IsWhole) (arg7 : Memref sig .tc .vmem S1024x64 .f32) (harg7 : arg7.IsWhole) (arg8 : Memref sig .tc .vmem S1024x64 .f32) (harg8 : arg8.IsWhole) (arg9 : Memref sig .tc .vmem S1024x64 .f32) (harg9 : arg9.IsWhole) (arg10 : Memref sig .tc .vmem S1024x64 .f32) (harg10 : arg10.IsWhole) (arg11 : Memref sig .tc .vmem S1x1x1024 .f32) (harg11 : arg11.IsWhole) (arg12 : Memref sig .tc .vmem S1x1x1024x64 .bf16) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x64 .f32) (harg15 : arg15.IsWhole)

theorem sout1_A_0_eq (hc0 : cond1_0 i) (hc1 : ¬cond1_1 i) (x0 x1 x2 : Vec F S1x1x1024x64 .bf16) (x3 x4 x5 x6 : Vec F S1024x64 .f32) (x7 : Vec F S1x1x1024 .f32) :
    sout1_A_0 c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k1_pay2 (k1_pay14 (k1_pay8 x0 x3 x4) (k1_pay9 x1 x5) (k1_pay10 x1) k1_pay11 (Scalar.ofBits .f32 0xBF800000#32) x6 x7 (k1_pay4 (F := F))) := by
  unfold sout1_A_0
  rw [View.read_writes_eq_canon _ _ _ (scover1_A_0 c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun1_A
  dsimp only
  try sl_unfold_words
  rw [View.canon_cons_unit_zero (S := S1024x1) zoff2]
  simp only [View.readAt_eq_ld, harg4.read_unread, harg5.read_unread, harg6.read_unread, harg7.read_unread, harg8.read_unread, harg9.read_unread, harg10.read_unread, harg11.read_unread, harg13.read_unread, harg14.read_unread, harg15.read_unread, View.ld_unit_zero (S := S1x1x1024x64) zoff4, View.ld_unit_zero (S := S1024x64) zoff2, View.ld_unit_zero (S := S1x1x1024) zoff3, View.ld_unit_zero (S := S1024x1) zoff2, View.readCov_unit_zero (S := S1024x1) _ zoff2, View.readCov_unit_zero (S := S1024x64) _ zoff2]

theorem sout1_A_1_eq (hc0 : cond1_0 i) (hc1 : ¬cond1_1 i) (x0 x1 x2 : Vec F S1x1x1024x64 .bf16) (x3 x4 x5 x6 : Vec F S1024x64 .f32) (x7 : Vec F S1x1x1024 .f32) :
    sout1_A_1 c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k1_pay17 (k1_pay8 x0 x3 x4) (k1_pay9 x1 x5) (k1_pay10 x1) k1_pay11 (Scalar.ofBits .f32 0xBF800000#32) x6 x7 (k1_pay4 (F := F)) (k1_pay4 (F := F)) (k1_pay5 (F := F)) := by
  unfold sout1_A_1
  rw [View.read_writes_eq_canon _ _ _ (scover1_A_1 c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun1_A
  dsimp only
  try sl_unfold_words
  rw [View.canon_cons_unit_zero (S := S1024x1) zoff2]
  simp only [View.readAt_eq_ld, harg4.read_unread, harg5.read_unread, harg6.read_unread, harg7.read_unread, harg8.read_unread, harg9.read_unread, harg10.read_unread, harg11.read_unread, harg13.read_unread, harg14.read_unread, harg15.read_unread, View.ld_unit_zero (S := S1x1x1024x64) zoff4, View.ld_unit_zero (S := S1024x64) zoff2, View.ld_unit_zero (S := S1x1x1024) zoff3, View.ld_unit_zero (S := S1024x1) zoff2, View.readCov_unit_zero (S := S1024x1) _ zoff2, View.readCov_unit_zero (S := S1024x64) _ zoff2]

theorem sout1_A_2_eq (hc0 : cond1_0 i) (hc1 : ¬cond1_1 i) (x0 x1 x2 : Vec F S1x1x1024x64 .bf16) (x3 x4 x5 x6 : Vec F S1024x64 .f32) (x7 : Vec F S1x1x1024 .f32) :
    sout1_A_2 c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 = k1_pay1 (k1_pay12 x2) (k1_pay15 (k1_pay8 x0 x3 x4) (k1_pay9 x1 x5) (k1_pay10 x1) k1_pay11 (Scalar.ofBits .f32 0xBF800000#32) x6 x7 (k1_pay4 (F := F)) (k1_pay4 (F := F))) (k1_pay16 (k1_pay8 x0 x3 x4) (k1_pay9 x1 x5) (k1_pay10 x1) k1_pay11 (Scalar.ofBits .f32 0xBF800000#32) x6 x7 (k1_pay4 (F := F))) (k1_pay6 (F := F)) := by
  unfold sout1_A_2
  rw [View.read_writes_eq_canon _ _ _ (scover1_A_2 c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7)]
  unfold kernelRun1_A
  dsimp only
  try sl_unfold_words
  rw [View.canon_cons_unit_zero (S := S1024x64) zoff2]
  simp only [View.readAt_eq_ld, harg4.read_unread, harg5.read_unread, harg6.read_unread, harg7.read_unread, harg8.read_unread, harg9.read_unread, harg10.read_unread, harg11.read_unread, harg13.read_unread, harg14.read_unread, harg15.read_unread, View.ld_unit_zero (S := S1x1x1024x64) zoff4, View.ld_unit_zero (S := S1024x64) zoff2, View.ld_unit_zero (S := S1x1x1024) zoff3, View.ld_unit_zero (S := S1024x1) zoff2, View.readCov_unit_zero (S := S1024x1) _ zoff2, View.readCov_unit_zero (S := S1024x64) _ zoff2]

theorem out1_C_8_eq (hc0 : ¬cond1_0 i) (hc1 : cond1_1 i) (x0 x1 x2 : Vec F S1x1x1024x64 .bf16) (x3 x4 x5 x6 : Vec F S1024x64 .f32) (x7 : Vec F S1x1x1024 .f32) (xs0 xs1 : Vec F S1024x1 .f32) (xs2 : Vec F S1024x64 .f32) :
    out1_C_8 c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2 = k1_pay3 (k1_pay1 (k1_pay12 x2) (k1_pay15 (k1_pay8 x0 x3 x4) (k1_pay9 x1 x5) (k1_pay10 x1) k1_pay11 (Scalar.ofBits .f32 0xBF800000#32) x6 x7 xs0 xs0) (k1_pay16 (k1_pay8 x0 x3 x4) (k1_pay9 x1 x5) (k1_pay10 x1) k1_pay11 (Scalar.ofBits .f32 0xBF800000#32) x6 x7 xs0) xs2) (k1_pay17 (k1_pay8 x0 x3 x4) (k1_pay9 x1 x5) (k1_pay10 x1) k1_pay11 (Scalar.ofBits .f32 0xBF800000#32) x6 x7 xs0 xs0 xs1) := by
  unfold out1_C_8
  rw [View.read_writes_eq_canon _ _ _ (cover1_C_8 c i arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 xs0 xs1 xs2)]
  unfold kernelRun1_C
  dsimp only
  try sl_unfold_words
  rw [View.canon_unit_zero zoff4]
  simp only [View.readAt_eq_ld, harg4.read_unread, harg5.read_unread, harg6.read_unread, harg7.read_unread, harg8.read_unread, harg9.read_unread, harg10.read_unread, harg11.read_unread, harg13.read_unread, harg14.read_unread, harg15.read_unread, View.ld_unit_zero (S := S1x1x1024x64) zoff4, View.ld_unit_zero (S := S1024x64) zoff2, View.ld_unit_zero (S := S1x1x1024) zoff3, View.ld_unit_zero (S := S1024x1) zoff2, View.readCov_unit_zero (S := S1024x1) _ zoff2, View.readCov_unit_zero (S := S1024x64) _ zoff2]

end

end Cert.KernelIdeal.Gen

end
-- ==== Proof.Pay1.lean ====
import proofs.«406353_j58076547776991_3_alg».proof.Proof.Gen.KernelIdeal.Skeleton
import proofs.«406353_j58076547776991_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.Pay

open Cert.KernelIdeal Cert.KernelIdeal.Gen Cert.Spec Idealize.ShloMosaic Idealize.ShloMosaic.ValueIdx

theorem pay12_apply (v41 : Vec Ideal S1x1x1024x64 .bf16) (k : Fin 1024) (j : Fin 64) :
    k1_pay12 v41 (ix2 k j) = v41 (ix4 0 0 k j) := by
  unfold k1_pay12
  exact shapeCast_apply v41 _ (ix2 k j) (ix4 0 0 k j) (by
    rw [Shape.rowMajor_val_four, Shape.rowMajor_val_two]
    show ((0 * 1 + 0) * 1024 + k.val) * 64 + j.val = k.val * 64 + j.val
    omega)

theorem pay2_eq (v55 : FVec Ideal S1024x1 .f32) : k1_pay2 v55 = v55 := by
  unfold k1_pay2
  exact shapeCast_self _ _

theorem pay3_apply (v85 : Vec Ideal S1024x64 .f32) (v86 : Vec Ideal S1024x1 .f32) (r : Fin 1024) (j : Fin 64) :
    k1_pay3 v85 v86 (ix4 0 0 r j) = Ideal.div (v85 (ix2 r j)) (v86 (ix2 r 0)) := by
  unfold k1_pay3
  refine (shapeCast_apply _ _ (ix4 0 0 r j) (ix2 r j) (by
    rw [Shape.rowMajor_val_four, Shape.rowMajor_val_two]
    show r.val * 64 + j.val = ((0 * 1 + 0) * 1024 + r.val) * 64 + j.val
    omega)).trans ?_
  show Ideal.div (v85 (ix2 r j)) (broadcastTo S1024x64 v86 _ (ix2 r j)) = _
  refine congrArg (Ideal.div (v85 (ix2 r j))) ?_
  exact broadcastTo_apply v86 _ (ix2 r j) (ix2 r 0) (fun a => match a with | ⟨0, _⟩ => rfl | ⟨1, _⟩ => rfl)

theorem word_neg_inf : Ideal.ofBits .f32 0xFF800000#32 = ⊥ := by
  simp [Ideal.ofBits, Ideal.ieee]

theorem pay4_apply (r : Fin 1024) : k1_pay4 (F := Ideal) (ix2 r 0) = ⊥ := by
  unfold k1_pay4
  rw [shapeCast_self]
  exact word_neg_inf
theorem pay5_apply (r : Fin 1024) : k1_pay5 (F := Ideal) (ix2 r 0) = 0 := by
  unfold k1_pay5
  rw [shapeCast_self]
  exact Ideal.ofBits_zero_f32
theorem pay6_apply (r : Fin 1024) (j : Fin 64) : k1_pay6 (F := Ideal) (ix2 r j) = 0 := by
  unfold k1_pay6
  rw [shapeCast_self]
  exact Ideal.ofBits_zero_f32

theorem pv_lhs_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem pv_lhs_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem pv_rhs_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem pv_rhs_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

theorem pay1_apply (v42 : FVec Ideal S1024x64 .bf16) (v58 : FVec Ideal S1024x1 .f32) (v61 : FVec Ideal S1024x1024 .f32)
    (v70 : Vec Ideal S1024x64 .f32) (r : Fin 1024) (j : Fin 64) :
    k1_pay1 v42 v58 v61 v70 (ix2 r j) = v58 (ix2 r 0) * v70 (ix2 r j) + ∑ k : Fin 1024, v61 (ix2 r k) * v42 (ix2 k j) := by
  unfold k1_pay1
  rw [shapeCast_self]
  refine congrArg₂ (· + ·) (congrArg (· * v70 (ix2 r j)) ?_) ?_
  · exact broadcastTo_apply v58 _ (ix2 r j) (ix2 r 0) (fun a => match a with | ⟨0, _⟩ => rfl | ⟨1, _⟩ => rfl)
  · refine (Ideal.matmul_constant_zero_apply dot_S1024x1024_S1024x64_S1024x64_1_0_0_1_n_n none _ _ (ix2 r j)).trans ?_
    rw [← Equiv.sum_comp (contrEquiv1 dot_S1024x1024_S1024x64_S1024x64_1_0_0_1_n_n 1024 rfl rfl).symm]
    refine Finset.sum_congr rfl fun k _ => ?_
    have hk := contrEquiv1_symm_val dot_S1024x1024_S1024x64_S1024x64_1_0_0_1_n_n 1024 rfl rfl k
    have el : dot_S1024x1024_S1024x64_S1024x64_1_0_0_1_n_n.lhsIdx (ix2 r j) ((contrEquiv1 dot_S1024x1024_S1024x64_S1024x64_1_0_0_1_n_n 1024 rfl rfl).symm k) = ix2 r k := funext fun a => Fin.ext (by
      match a with
      | ⟨0, _⟩ => exact pv_lhs_0 _ _
      | ⟨1, _⟩ => exact (pv_lhs_1 _ _).trans hk)
    have er : dot_S1024x1024_S1024x64_S1024x64_1_0_0_1_n_n.rhsIdx (ix2 r j) ((contrEquiv1 dot_S1024x1024_S1024x64_S1024x64_1_0_0_1_n_n 1024 rfl rfl).symm k) = ix2 k j := funext fun a => Fin.ext (by
      match a with
      | ⟨0, _⟩ => exact (pv_rhs_0 _ _).trans hk
      | ⟨1, _⟩ => exact pv_rhs_1 _ _)
    rw [el, er]
    rfl

theorem lift_row (r k : Fin 1024) : (reduces_S1024x1024_S1024.lift (ix1 r) k : S1024x1024.Idx) = ix2 r k :=
  funext fun a => Fin.ext (by match a with | ⟨0, _⟩ => rfl | ⟨1, _⟩ => rfl)

section Softmax
variable (v24 : FVec Ideal S1024x64 .bf16) (v27 v29 : FVec Ideal S1024x64 .f32) (v31 : IVec S1024x64 1) (cst : Ideal .f32)
  (v36 : Vec Ideal S1024x64 .f32) (v47 : Vec Ideal S1x1x1024 .f32) (v52 v56 v62 : Vec Ideal S1024x1 .f32)

theorem pay14_apply (r : Fin 1024) :
    k1_pay14 v24 v27 v29 v31 cst v36 v47 v52 (ix2 r 0)
      = max (v52 (ix2 r 0)) (rowMax ⊥ (fun k : Fin 1024 => k1_pay13 v24 v27 v29 v31 cst v36 v47 (ix2 r k))) := by
  unfold k1_pay14
  refine congrArg (max (v52 (ix2 r 0))) ?_
  refine (shapeCast_apply _ _ (ix2 r 0) (ix1 r) (by
    rw [Shape.rowMajor_val_one, Shape.rowMajor_val_two]
    show r.val = r.val * 1 + 0
    omega)).trans ?_
  refine (Ideal.multiReduction_maximumf_single _ _ reduces_S1024x1024_S1024 _ _ (ix1 r)).trans ?_
  unfold rowMax
  rw [Ideal.ofBits_def, word_neg_inf]
  refine congrArg (Finset.fold max ⊥ · Finset.univ) (funext fun k => ?_)
  exact congrArg (k1_pay13 v24 v27 v29 v31 cst v36 v47) (lift_row r k)

theorem pay15_apply (r : Fin 1024) :
    k1_pay15 v24 v27 v29 v31 cst v36 v47 v52 v56 (ix2 r 0)
      = Ideal.exp (v56 (ix2 r 0) - k1_pay14 v24 v27 v29 v31 cst v36 v47 v52 (ix2 r 0)) := rfl

theorem pay16_apply (r k : Fin 1024) :
    k1_pay16 v24 v27 v29 v31 cst v36 v47 v52 (ix2 r k)
      = Ideal.exp (k1_pay13 v24 v27 v29 v31 cst v36 v47 (ix2 r k) - k1_pay14 v24 v27 v29 v31 cst v36 v47 v52 (ix2 r 0)) := by
  unfold k1_pay16
  refine congrArg (fun z => Ideal.exp (k1_pay13 v24 v27 v29 v31 cst v36 v47 (ix2 r k) - z)) ?_
  exact broadcastTo_apply _ _ (ix2 r k) (ix2 r 0) (fun a => match a with | ⟨0, _⟩ => rfl | ⟨1, _⟩ => rfl)

theorem pay17_apply (r : Fin 1024) :
    k1_pay17 v24 v27 v29 v31 cst v36 v47 v52 v56 v62 (ix2 r 0)
      = k1_pay15 v24 v27 v29 v31 cst v36 v47 v52 v56 (ix2 r 0) * v62 (ix2 r 0)
        + ∑ k : Fin 1024, k1_pay16 v24 v27 v29 v31 cst v36 v47 v52 (ix2 r k) := by
  unfold k1_pay17
  rw [shapeCast_self]
  refine congrArg (k1_pay15 v24 v27 v29 v31 cst v36 v47 v52 v56 (ix2 r 0) * v62 (ix2 r 0) + ·) ?_
  refine (shapeCast_apply _ _ (ix2 r 0) (ix1 r) (by
    rw [Shape.rowMajor_val_one, Shape.rowMajor_val_two]
    show r.val = r.val * 1 + 0
    omega)).trans ?_
  refine (Ideal.multiReduction_add_single _ _ reduces_S1024x1024_S1024 _ _ (ix1 r)).trans ?_
  exact Finset.sum_congr rfl fun k _ => congrArg (k1_pay16 v24 v27 v29 v31 cst v36 v47 v52) (lift_row r k)

end Softmax

theorem word_neg_one : Ideal.ofBits .f32 0xBF800000#32 = -1 := by
  simp [Ideal.ofBits, Ideal.ieee, -EReal.coe_mul]; norm_num
theorem word_one : Ideal.ofBits .f32 0x3F800000#32 = 1 := by
  simp [Ideal.ofBits, Ideal.ieee, -EReal.coe_mul]; norm_num

theorem lt32_word : ∀ j : Fin 64, IntOp.cmpi .slt (BitVec.ofNat 32 j.val) 32#32 = if j.val < 32 then 1#1 else 0#1 := by decide

theorem sign_apply (r : Fin 1024) (j : Fin 64) :
    select k1_pay11 (broadcast S1024x64 (Scalar.ofBits (F := Ideal) .f32 0xBF800000#32))
        (broadcast S1024x64 (Scalar.ofBits (F := Ideal) .f32 0x3F800000#32)) (ix2 r j)
      = if j.val < 32 then (-1 : EReal) else 1 := by
  unfold k1_pay11
  show Scalar.select (IntOp.cmpi .slt (iota .tc S1024x64 32 [1] iota_S1024x64_d1_w32 (ix2 r j)) 32#32)
      (Ideal.ofBits .f32 0xBF800000#32) (Ideal.ofBits .f32 0x3F800000#32) = _
  rw [iota_single_apply, word_neg_one, word_one]
  show Scalar.select (IntOp.cmpi .slt (BitVec.ofNat 32 j.val) 32#32) (-1 : EReal) 1 = _
  rw [lt32_word j]
  by_cases hj : j.val < 32
  · rw [if_pos hj, if_pos hj]; exact select_one _ _
  · rw [if_neg hj, if_neg hj]; exact select_zero _ _

theorem rot_apply (x : FVec Ideal S1024x64 .f32) (r : Fin 1024) (j : Fin 64) :
    dynamicRotate 1 32#32 none x rotates_S1024x64_d1 (ix2 r j) = x (ix2 r (⟨(j.val + 32) % 64, Nat.mod_lt _ (by decide)⟩ : Fin 64)) :=
  dynamicRotate_apply 1 32#32 x rotates_S1024x64_d1 (ix2 r j) (ix2 r (⟨(j.val + 32) % 64, Nat.mod_lt _ (by decide)⟩ : Fin 64))
    (fun b => match b with
      | ⟨0, _⟩ => rfl
      | ⟨1, _⟩ => by
        show (j.val + 32) % 64 = (j.val + 64 - 32 % 64) % 64
        omega)

theorem rot_sign (t : Fin 64 → EReal) (j : Fin 64) :
    t (⟨(j.val + 32) % 64, Nat.mod_lt _ (by decide)⟩ : Fin 64) * (if j.val < 32 then (-1 : EReal) else 1) = rotHalf t j := by
  unfold rotHalf
  have hj2 := j.isLt
  by_cases hj : j.val < 32
  · rw [if_pos hj, dif_pos hj, mul_neg_one]
    exact congrArg (fun z => -(t z)) (Fin.ext (by show (j.val + 32) % 64 = j.val + 32; omega))
  · rw [if_neg hj, dif_neg hj, mul_one]
    exact congrArg t (Fin.ext (by show (j.val + 32) % 64 = j.val - 32; omega))

theorem pay7_apply (v6 : Vec Ideal S1x1x1024x64 .bf16) (k : Fin 1024) (j : Fin 64) : k1_pay7 v6 (ix2 k j) = v6 (ix4 0 0 k j) :=
  pay12_apply v6 k j

theorem pay8_apply (v3 : Vec Ideal S1x1x1024x64 .bf16) (v9 v20 : Vec Ideal S1024x64 .f32) (r : Fin 1024) (j : Fin 64) :
    k1_pay8 v3 v9 v20 (ix2 r j)
      = v3 (ix4 0 0 r j) * v9 (ix2 r j) + rotHalf (fun j' : Fin 64 => v3 (ix4 0 0 r j')) j * v20 (ix2 r j) := by
  unfold k1_pay8
  rw [shapeCast_self v9, shapeCast_self v20]
  refine congrArg₂ (· + ·) (congrArg (· * v9 (ix2 r j)) ?_) (congrArg (· * v20 (ix2 r j)) ?_)
  · exact pay12_apply v3 r j
  · refine (congrArg₂ (· * ·) (rot_apply (k1_pay7 v3) r j) (sign_apply r j)).trans ?_
    rw [pay7_apply]
    exact rot_sign (fun j' : Fin 64 => v3 (ix4 0 0 r j')) j

def ropeK (v6 : Vec Ideal S1x1x1024x64 .bf16) (v25 v36 : Vec Ideal S1024x64 .f32) (k : Fin 1024) (j : Fin 64) : EReal :=
  v6 (ix4 0 0 k j) * v25 (ix2 k j) + rotHalf (fun j' : Fin 64 => v6 (ix4 0 0 k j')) j * v36 (ix2 k j)

theorem keyrope_apply (v6 : Vec Ideal S1x1x1024x64 .bf16) (v25 v36 : Vec Ideal S1024x64 .f32) (k : Fin 1024) (j : Fin 64) :
    k1_pay9 v6 v25 (ix2 k j)
        + (k1_pay10 v6 (ix2 k j)
            * select k1_pay11 (broadcast S1024x64 (Scalar.ofBits (F := Ideal) .f32 0xBF800000#32))
                (broadcast S1024x64 (Scalar.ofBits (F := Ideal) .f32 0x3F800000#32)) (ix2 k j))
          * v36 (ix2 k j)
      = ropeK v6 v25 v36 k j := by
  unfold ropeK k1_pay9 k1_pay10
  rw [shapeCast_self v25]
  refine congrArg₂ (· + ·) (congrArg (· * v25 (ix2 k j)) ?_) (congrArg (· * v36 (ix2 k j)) ?_)
  · exact pay7_apply v6 k j
  · refine (congrArg₂ (· * ·) (rot_apply (k1_pay7 v6) k j) (sign_apply k j)).trans ?_
    rw [pay7_apply]
    exact rot_sign (fun j' : Fin 64 => v6 (ix4 0 0 k j')) j

theorem qk_lhs_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem qk_lhs_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem qk_rhs_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem qk_rhs_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

theorem pay13_apply (v24 : FVec Ideal S1024x64 .bf16) (v6 : Vec Ideal S1x1x1024x64 .bf16) (v25 v36 : Vec Ideal S1024x64 .f32)
    (v47 : Vec Ideal S1x1x1024 .f32) (r k : Fin 1024) :
    k1_pay13 v24 (k1_pay9 v6 v25) (k1_pay10 v6) k1_pay11 (Scalar.ofBits (F := Ideal) .f32 0xBF800000#32) v36 v47 (ix2 r k)
      = (∑ j : Fin 64, v24 (ix2 r j) * ropeK v6 v25 v36 k j) * eighth + v47 (ix3 0 0 k) := by
  unfold k1_pay13
  rw [shapeCast_self v36]
  refine congrArg₂ (· + ·) (congrArg (· * eighth) ?_) ?_
  · refine (Ideal.matmul_constant_zero_apply dot_S1024x64_S64x1024_S1024x1024_1_0_0_1_n_n none _ _ (ix2 r k)).trans ?_
    rw [← Equiv.sum_comp (contrEquiv1 dot_S1024x64_S64x1024_S1024x1024_1_0_0_1_n_n 64 rfl rfl).symm]
    refine Finset.sum_congr rfl fun j _ => ?_
    have hk := contrEquiv1_symm_val dot_S1024x64_S64x1024_S1024x1024_1_0_0_1_n_n 64 rfl rfl j
    have el : dot_S1024x64_S64x1024_S1024x1024_1_0_0_1_n_n.lhsIdx (ix2 r k) ((contrEquiv1 dot_S1024x64_S64x1024_S1024x1024_1_0_0_1_n_n 64 rfl rfl).symm j) = ix2 r j := funext fun a => Fin.ext (by
      match a with
      | ⟨0, _⟩ => exact qk_lhs_0 _ _
      | ⟨1, _⟩ => exact (qk_lhs_1 _ _).trans hk)
    have er : dot_S1024x64_S64x1024_S1024x1024_1_0_0_1_n_n.rhsIdx (ix2 r k) ((contrEquiv1 dot_S1024x64_S64x1024_S1024x1024_1_0_0_1_n_n 64 rfl rfl).symm j) = ix2 j k := funext fun a => Fin.ext (by
      match a with
      | ⟨0, _⟩ => exact (qk_rhs_0 _ _).trans hk
      | ⟨1, _⟩ => exact qk_rhs_1 _ _)
    rw [el, er]
    refine congrArg (v24 (ix2 r j) * ·) ?_
    refine (transpose_ix2_apply _ transposes_S1024x64_p1_0_S64x1024 j k).trans ?_
    exact keyrope_apply v6 v25 v36 k j
  · refine (broadcastTo_1b_ab_apply _ broadcasts_S1x1024_S1024x1024 r k).trans ?_
    refine (shapeCast_a_1a_apply _ _ (0 : Fin 1) k).trans ?_
    exact shapeCast_apply v47 _ (ix1 k) (ix3 0 0 k) (by
      rw [Shape.rowMajor_val_three, Shape.rowMajor_val_one]
      show (0 * 1 + 0) * 1024 + k.val = k.val
      omega)

end Cert.KernelIdeal.Pay

end
-- ==== Proof.Step1.lean ====
import proofs.«406353_j58076547776991_3_alg».proof.Proof.Pay1
import proofs.«406353_j58076547776991_3_alg».proof.Proof.Spec

noncomputable section

namespace Cert.KernelIdeal.Step

open Cert.KernelIdeal Cert.KernelIdeal.Gen Cert.KernelIdeal.Pay Cert.Spec Idealize.ShloMosaic Idealize.ShloMosaic.ValueIdx

variable (x0 x1 x2 : Vec Ideal S1x1x1024x64 .bf16) (x3 x4 x5 x6 : Vec Ideal S1024x64 .f32) (x7 : Vec Ideal S1x1x1024 .f32)

def blkScore (r k : Fin 1024) : EReal :=
  (∑ j : Fin 64, ropeK x0 x3 x4 r j * ropeK x1 x5 x6 k j) * eighth + x7 (ix3 0 0 k)

theorem score_apply (r k : Fin 1024) :
    k1_pay13 (k1_pay8 x0 x3 x4) (k1_pay9 x1 x5) (k1_pay10 x1) k1_pay11 (Scalar.ofBits (F := Ideal) .f32 0xBF800000#32) x6 x7 (ix2 r k) = blkScore x0 x1 x3 x4 x5 x6 x7 r k := by
  refine (pay13_apply (k1_pay8 x0 x3 x4) x1 x5 x6 x7 r k).trans ?_
  unfold blkScore
  refine congrArg (fun z => z * eighth + x7 (ix3 0 0 k)) (Finset.sum_congr rfl fun j _ => ?_)
  refine congrArg (· * ropeK x1 x5 x6 k j) ?_
  exact (pay8_apply x0 x3 x4 r j).trans rfl

def newMax (m : EReal) (r : Fin 1024) : EReal := max m (rowMax ⊥ (fun k : Fin 1024 => blkScore x0 x1 x3 x4 x5 x6 x7 r k))

theorem max_apply (m : Vec Ideal S1024x1 .f32) (r : Fin 1024) :
    k1_pay14 (k1_pay8 x0 x3 x4) (k1_pay9 x1 x5) (k1_pay10 x1) k1_pay11 (Scalar.ofBits (F := Ideal) .f32 0xBF800000#32) x6 x7 m (ix2 r 0) = newMax x0 x1 x3 x4 x5 x6 x7 (m (ix2 r 0)) r := by
  refine (pay14_apply _ _ _ _ _ _ _ m r).trans ?_
  unfold newMax
  exact congrArg (fun f : Fin 1024 → EReal => max (m (ix2 r 0)) (rowMax ⊥ f)) (funext fun k => score_apply x0 x1 x3 x4 x5 x6 x7 r k)

theorem stepM_apply (m : Vec Ideal S1024x1 .f32) (r : Fin 1024) :
    k1_pay2 (k1_pay14 (k1_pay8 x0 x3 x4) (k1_pay9 x1 x5) (k1_pay10 x1) k1_pay11 (Scalar.ofBits (F := Ideal) .f32 0xBF800000#32) x6 x7 m) (ix2 r 0) = newMax x0 x1 x3 x4 x5 x6 x7 (m (ix2 r 0)) r := by
  rw [pay2_eq]
  exact max_apply x0 x1 x3 x4 x5 x6 x7 m r

theorem alpha_apply (m : Vec Ideal S1024x1 .f32) (r : Fin 1024) :
    k1_pay15 (k1_pay8 x0 x3 x4) (k1_pay9 x1 x5) (k1_pay10 x1) k1_pay11 (Scalar.ofBits (F := Ideal) .f32 0xBF800000#32) x6 x7 m m (ix2 r 0) = Ideal.exp (m (ix2 r 0) - newMax x0 x1 x3 x4 x5 x6 x7 (m (ix2 r 0)) r) := by
  refine (pay15_apply _ _ _ _ _ _ _ m m r).trans ?_
  exact congrArg (fun z => Ideal.exp (m (ix2 r 0) - z)) (max_apply x0 x1 x3 x4 x5 x6 x7 m r)

theorem prob_apply (m : Vec Ideal S1024x1 .f32) (r k : Fin 1024) :
    k1_pay16 (k1_pay8 x0 x3 x4) (k1_pay9 x1 x5) (k1_pay10 x1) k1_pay11 (Scalar.ofBits (F := Ideal) .f32 0xBF800000#32) x6 x7 m (ix2 r k)
      = Ideal.exp (blkScore x0 x1 x3 x4 x5 x6 x7 r k - newMax x0 x1 x3 x4 x5 x6 x7 (m (ix2 r 0)) r) := by
  refine (pay16_apply _ _ _ _ _ _ _ m r k).trans ?_
  exact congrArg₂ (fun y z => Ideal.exp (y - z)) (score_apply x0 x1 x3 x4 x5 x6 x7 r k) (max_apply x0 x1 x3 x4 x5 x6 x7 m r)

theorem stepL_apply (m l : Vec Ideal S1024x1 .f32) (r : Fin 1024) :
    k1_pay17 (k1_pay8 x0 x3 x4) (k1_pay9 x1 x5) (k1_pay10 x1) k1_pay11 (Scalar.ofBits (F := Ideal) .f32 0xBF800000#32) x6 x7 m m l (ix2 r 0)
      = Ideal.exp (m (ix2 r 0) - newMax x0 x1 x3 x4 x5 x6 x7 (m (ix2 r 0)) r) * l (ix2 r 0)
        + ∑ k : Fin 1024, Ideal.exp (blkScore x0 x1 x3 x4 x5 x6 x7 r k - newMax x0 x1 x3 x4 x5 x6 x7 (m (ix2 r 0)) r) := by
  refine (pay17_apply _ _ _ _ _ _ _ m m l r).trans ?_
  exact congrArg₂ (· + ·) (congrArg (· * l (ix2 r 0)) (alpha_apply x0 x1 x3 x4 x5 x6 x7 m r))
    (Finset.sum_congr rfl fun k _ => prob_apply x0 x1 x3 x4 x5 x6 x7 m r k)

theorem stepA_apply (m : Vec Ideal S1024x1 .f32) (a : Vec Ideal S1024x64 .f32) (r : Fin 1024) (j : Fin 64) :
    k1_pay1 (k1_pay12 x2) (k1_pay15 (k1_pay8 x0 x3 x4) (k1_pay9 x1 x5) (k1_pay10 x1) k1_pay11 (Scalar.ofBits (F := Ideal) .f32 0xBF800000#32) x6 x7 m m) (k1_pay16 (k1_pay8 x0 x3 x4) (k1_pay9 x1 x5) (k1_pay10 x1) k1_pay11 (Scalar.ofBits (F := Ideal) .f32 0xBF800000#32) x6 x7 m) a (ix2 r j)
      = Ideal.exp (m (ix2 r 0) - newMax x0 x1 x3 x4 x5 x6 x7 (m (ix2 r 0)) r) * a (ix2 r j)
        + ∑ k : Fin 1024, Ideal.exp (blkScore x0 x1 x3 x4 x5 x6 x7 r k - newMax x0 x1 x3 x4 x5 x6 x7 (m (ix2 r 0)) r) * x2 (ix4 0 0 k j) := by
  refine (pay1_apply _ _ _ a r j).trans ?_
  exact congrArg₂ (· + ·) (congrArg (· * a (ix2 r j)) (alpha_apply x0 x1 x3 x4 x5 x6 x7 m r))
    (Finset.sum_congr rfl fun k _ => congrArg₂ (· * ·) (prob_apply x0 x1 x3 x4 x5 x6 x7 m r k) (pay12_apply x2 k j))

theorem step_eq (m l : Vec Ideal S1024x1 .f32) (a : Vec Ideal S1024x64 .f32) (r : Fin 1024) (j : Fin 64) :
    (k1_pay2 (k1_pay14 (k1_pay8 x0 x3 x4) (k1_pay9 x1 x5) (k1_pay10 x1) k1_pay11 (Scalar.ofBits (F := Ideal) .f32 0xBF800000#32) x6 x7 m) (ix2 r 0),
      k1_pay17 (k1_pay8 x0 x3 x4) (k1_pay9 x1 x5) (k1_pay10 x1) k1_pay11 (Scalar.ofBits (F := Ideal) .f32 0xBF800000#32) x6 x7 m m l (ix2 r 0),
      k1_pay1 (k1_pay12 x2) (k1_pay15 (k1_pay8 x0 x3 x4) (k1_pay9 x1 x5) (k1_pay10 x1) k1_pay11 (Scalar.ofBits (F := Ideal) .f32 0xBF800000#32) x6 x7 m m) (k1_pay16 (k1_pay8 x0 x3 x4) (k1_pay9 x1 x5) (k1_pay10 x1) k1_pay11 (Scalar.ofBits (F := Ideal) .f32 0xBF800000#32) x6 x7 m) a (ix2 r j))
      = flashStep (m (ix2 r 0), l (ix2 r 0), a (ix2 r j)) (fun k : Fin 1024 => blkScore x0 x1 x3 x4 x5 x6 x7 r k)
          (fun k : Fin 1024 => x2 (ix4 0 0 k j)) := by
  rw [stepM_apply, stepL_apply, stepA_apply]
  rfl

end Cert.KernelIdeal.Step

end
-- ==== Proof.Val1.lean ====
import proofs.«406353_j58076547776991_3_alg».proof.Proof.R1
import proofs.«406353_j58076547776991_3_alg».proof.Proof.Piece1
import proofs.«406353_j58076547776991_3_alg».proof.Proof.Step1
import proofs.«406353_j58076547776991_3_alg».proof.Proof.Spec
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.TcCoe Idealize.SL.Sem Idealize.ShloMosaic.ValueIdx
open Idealize.ShloMosaic.Pipeline (Dat)
open Cert.KernelIdeal.Pay Cert.KernelIdeal.Step

variable (V : (c : Dev nD) → (b : Ref sig .tc) → Buf (Elt Ideal) ((c : Thread nD τ).loc b))

abbrev qq (c : Dev nD) : S4x16x2048x64.Idx → EReal := V c main_v8
abbrev kk (c : Dev nD) : S4x16x2048x64.Idx → EReal := V c main_v10
abbrev vv (c : Dev nD) : S4x16x2048x64.Idx → EReal := V c main_v12
abbrev cosA (c : Dev nD) : S2048x64.Idx → EReal := V c main_v13
abbrev sinA (c : Dev nD) : S2048x64.Idx → EReal := V c main_v14
abbrev biasA (c : Dev nD) : S4x1x2048.Idx → EReal := V c main_v19

def ropeAt (t : S4x16x2048x64.Idx → EReal) (cosT sinT : S2048x64.Idx → EReal) (b : Fin 4) (h : Fin 16) (s : Fin 2048) (j : Fin 64) : EReal :=
  t (ix4 b h s j) * cosT (ix2 s j) + Cert.Spec.rotHalf (fun j' : Fin 64 => t (ix4 b h s j')) j * sinT (ix2 s j)

def scoreAt (qT kT : S4x16x2048x64.Idx → EReal) (cosT sinT : S2048x64.Idx → EReal) (biasT : S4x1x2048.Idx → EReal)
    (b : Fin 4) (h : Fin 16) (q k : Fin 2048) : EReal :=
  (∑ j' : Fin 64, ropeAt qT cosT sinT b h q j' * ropeAt kT cosT sinT b h k j') * Cert.Spec.eighth + biasT (ix3 b (0 : Fin 1) k)

abbrev blkQ (c : Dev nD) (t : Fin cfg1.N) : Vec Ideal S1x1x1024x64 .bf16 := iblk1 V c 0 t
abbrev blkK (c : Dev nD) (t : Fin cfg1.N) : Vec Ideal S1x1x1024x64 .bf16 := iblk1 V c 1 t
abbrev blkV (c : Dev nD) (t : Fin cfg1.N) : Vec Ideal S1x1x1024x64 .bf16 := iblk1 V c 2 t
abbrev blkCq (c : Dev nD) (t : Fin cfg1.N) : Vec Ideal S1024x64 .f32 := iblk1 V c 3 t
abbrev blkSq (c : Dev nD) (t : Fin cfg1.N) : Vec Ideal S1024x64 .f32 := iblk1 V c 4 t
abbrev blkCk (c : Dev nD) (t : Fin cfg1.N) : Vec Ideal S1024x64 .f32 := iblk1 V c 5 t
abbrev blkSk (c : Dev nD) (t : Fin cfg1.N) : Vec Ideal S1024x64 .f32 := iblk1 V c 6 t
abbrev blkB (c : Dev nD) (t : Fin cfg1.N) : Vec Ideal S1x1x1024 .f32 := iblk1 V c 7 t

theorem idx1_0 : ∀ t : Fin cfg1.N, win1_0.index t (0 : Fin 4) = t.val / 64 ∧ win1_0.index t (1 : Fin 4) = t.val / 4 % 16
    ∧ win1_0.index t (2 : Fin 4) = t.val / 2 % 2 ∧ win1_0.index t (3 : Fin 4) = 0 :=
  (by decide +kernel : ∀ t : Fin grid1.N, _)
theorem idx1_1 : ∀ t : Fin cfg1.N, win1_1.index t (0 : Fin 4) = t.val / 64 ∧ win1_1.index t (1 : Fin 4) = t.val / 4 % 16
    ∧ win1_1.index t (2 : Fin 4) = t.val % 2 ∧ win1_1.index t (3 : Fin 4) = 0 :=
  (by decide +kernel : ∀ t : Fin grid1.N, _)
theorem idx1_2 : ∀ t : Fin cfg1.N, win1_2.index t (0 : Fin 4) = t.val / 64 ∧ win1_2.index t (1 : Fin 4) = t.val / 4 % 16
    ∧ win1_2.index t (2 : Fin 4) = t.val % 2 ∧ win1_2.index t (3 : Fin 4) = 0 :=
  (by decide +kernel : ∀ t : Fin grid1.N, _)
theorem idx1_3 : ∀ t : Fin cfg1.N, win1_3.index t (0 : Fin 2) = t.val / 2 % 2 ∧ win1_3.index t (1 : Fin 2) = 0 :=
  (by decide +kernel : ∀ t : Fin grid1.N, _)
theorem idx1_4 : ∀ t : Fin cfg1.N, win1_4.index t (0 : Fin 2) = t.val / 2 % 2 ∧ win1_4.index t (1 : Fin 2) = 0 :=
  (by decide +kernel : ∀ t : Fin grid1.N, _)
theorem idx1_5 : ∀ t : Fin cfg1.N, win1_5.index t (0 : Fin 2) = t.val % 2 ∧ win1_5.index t (1 : Fin 2) = 0 :=
  (by decide +kernel : ∀ t : Fin grid1.N, _)
theorem idx1_6 : ∀ t : Fin cfg1.N, win1_6.index t (0 : Fin 2) = t.val % 2 ∧ win1_6.index t (1 : Fin 2) = 0 :=
  (by decide +kernel : ∀ t : Fin grid1.N, _)
theorem idx1_7 : ∀ t : Fin cfg1.N, win1_7.index t (0 : Fin 3) = t.val / 64 ∧ win1_7.index t (1 : Fin 3) = 0
    ∧ win1_7.index t (2 : Fin 3) = t.val % 2 :=
  (by decide +kernel : ∀ t : Fin grid1.N, _)
theorem idx1_8 : ∀ t : Fin cfg1.N, win1_8.index t (0 : Fin 4) = t.val / 64 ∧ win1_8.index t (1 : Fin 4) = t.val / 4 % 16
    ∧ win1_8.index t (2 : Fin 4) = t.val / 2 % 2 ∧ win1_8.index t (3 : Fin 4) = 0 :=
  (by decide +kernel : ∀ t : Fin grid1.N, _)

theorem blkQ_apply (c : Dev nD) (t : Fin cfg1.N) (r : Fin 1024) (j : Fin 64) (b : Fin 4) (h : Fin 16) (q : Fin 2048)
    (hb : b.val = t.val / 64) (hh : h.val = t.val / 4 % 16) (hq : q.val = t.val / 2 % 2 * 1024 + r.val) :
    blkQ V c t (ix4 0 0 r j) = qq V c (ix4 b h q j) := by
  obtain ⟨e0, e1, e2, e3⟩ := idx1_0 t
  unfold blkQ iblk1
  rw [View.read_apply]
  show V c main_v8 _ = V c main_v8 _
  congr 1
  funext a
  apply Fin.ext
  match a with
  | ⟨0, _⟩ => show win1_0.index t (0 : Fin 4) * 1 + 1 * 0 = b.val; rw [e0, hb]; omega
  | ⟨1, _⟩ => show win1_0.index t (1 : Fin 4) * 1 + 1 * 0 = h.val; rw [e1, hh]; omega
  | ⟨2, _⟩ => show win1_0.index t (2 : Fin 4) * 1024 + 1 * r.val = q.val; rw [e2, hq]; omega
  | ⟨3, _⟩ => show win1_0.index t (3 : Fin 4) * 64 + 1 * j.val = j.val; rw [e3]; omega

theorem blkK_apply (c : Dev nD) (t : Fin cfg1.N) (k : Fin 1024) (j : Fin 64) (b : Fin 4) (h : Fin 16) (kp : Fin 2048)
    (hb : b.val = t.val / 64) (hh : h.val = t.val / 4 % 16) (hk : kp.val = t.val % 2 * 1024 + k.val) :
    blkK V c t (ix4 0 0 k j) = kk V c (ix4 b h kp j) := by
  obtain ⟨e0, e1, e2, e3⟩ := idx1_1 t
  unfold blkK iblk1
  rw [View.read_apply]
  show V c main_v10 _ = V c main_v10 _
  congr 1
  funext a
  apply Fin.ext
  match a with
  | ⟨0, _⟩ => show win1_1.index t (0 : Fin 4) * 1 + 1 * 0 = b.val; rw [e0, hb]; omega
  | ⟨1, _⟩ => show win1_1.index t (1 : Fin 4) * 1 + 1 * 0 = h.val; rw [e1, hh]; omega
  | ⟨2, _⟩ => show win1_1.index t (2 : Fin 4) * 1024 + 1 * k.val = kp.val; rw [e2, hk]; omega
  | ⟨3, _⟩ => show win1_1.index t (3 : Fin 4) * 64 + 1 * j.val = j.val; rw [e3]; omega

theorem blkV_apply (c : Dev nD) (t : Fin cfg1.N) (k : Fin 1024) (j : Fin 64) (b : Fin 4) (h : Fin 16) (kp : Fin 2048)
    (hb : b.val = t.val / 64) (hh : h.val = t.val / 4 % 16) (hk : kp.val = t.val % 2 * 1024 + k.val) :
    blkV V c t (ix4 0 0 k j) = vv V c (ix4 b h kp j) := by
  obtain ⟨e0, e1, e2, e3⟩ := idx1_2 t
  unfold blkV iblk1
  rw [View.read_apply]
  show V c main_v12 _ = V c main_v12 _
  congr 1
  funext a
  apply Fin.ext
  match a with
  | ⟨0, _⟩ => show win1_2.index t (0 : Fin 4) * 1 + 1 * 0 = b.val; rw [e0, hb]; omega
  | ⟨1, _⟩ => show win1_2.index t (1 : Fin 4) * 1 + 1 * 0 = h.val; rw [e1, hh]; omega
  | ⟨2, _⟩ => show win1_2.index t (2 : Fin 4) * 1024 + 1 * k.val = kp.val; rw [e2, hk]; omega
  | ⟨3, _⟩ => show win1_2.index t (3 : Fin 4) * 64 + 1 * j.val = j.val; rw [e3]; omega

theorem blkCq_apply (c : Dev nD) (t : Fin cfg1.N) (r : Fin 1024) (j : Fin 64) (q : Fin 2048)
    (hq : q.val = t.val / 2 % 2 * 1024 + r.val) : blkCq V c t (ix2 r j) = cosA V c (ix2 q j) := by
  obtain ⟨e0, e1⟩ := idx1_3 t
  unfold blkCq iblk1
  rw [View.read_apply]
  show V c main_v13 _ = V c main_v13 _
  congr 1
  funext a
  apply Fin.ext
  match a with
  | ⟨0, _⟩ => show win1_3.index t (0 : Fin 2) * 1024 + 1 * r.val = q.val; rw [e0, hq]; omega
  | ⟨1, _⟩ => show win1_3.index t (1 : Fin 2) * 64 + 1 * j.val = j.val; rw [e1]; omega
theorem blkSq_apply (c : Dev nD) (t : Fin cfg1.N) (r : Fin 1024) (j : Fin 64) (q : Fin 2048)
    (hq : q.val = t.val / 2 % 2 * 1024 + r.val) : blkSq V c t (ix2 r j) = sinA V c (ix2 q j) := by
  obtain ⟨e0, e1⟩ := idx1_4 t
  unfold blkSq iblk1
  rw [View.read_apply]
  show V c main_v14 _ = V c main_v14 _
  congr 1
  funext a
  apply Fin.ext
  match a with
  | ⟨0, _⟩ => show win1_4.index t (0 : Fin 2) * 1024 + 1 * r.val = q.val; rw [e0, hq]; omega
  | ⟨1, _⟩ => show win1_4.index t (1 : Fin 2) * 64 + 1 * j.val = j.val; rw [e1]; omega

theorem blkCk_apply (c : Dev nD) (t : Fin cfg1.N) (k : Fin 1024) (j : Fin 64) (kp : Fin 2048)
    (hk : kp.val = t.val % 2 * 1024 + k.val) : blkCk V c t (ix2 k j) = cosA V c (ix2 kp j) := by
  obtain ⟨e0, e1⟩ := idx1_5 t
  unfold blkCk iblk1
  rw [View.read_apply]
  show V c main_v13 _ = V c main_v13 _
  congr 1
  funext a
  apply Fin.ext
  match a with
  | ⟨0, _⟩ => show win1_5.index t (0 : Fin 2) * 1024 + 1 * k.val = kp.val; rw [e0, hk]; omega
  | ⟨1, _⟩ => show win1_5.index t (1 : Fin 2) * 64 + 1 * j.val = j.val; rw [e1]; omega
theorem blkSk_apply (c : Dev nD) (t : Fin cfg1.N) (k : Fin 1024) (j : Fin 64) (kp : Fin 2048)
    (hk : kp.val = t.val % 2 * 1024 + k.val) : blkSk V c t (ix2 k j) = sinA V c (ix2 kp j) := by
  obtain ⟨e0, e1⟩ := idx1_6 t
  unfold blkSk iblk1
  rw [View.read_apply]
  show V c main_v14 _ = V c main_v14 _
  congr 1
  funext a
  apply Fin.ext
  match a with
  | ⟨0, _⟩ => show win1_6.index t (0 : Fin 2) * 1024 + 1 * k.val = kp.val; rw [e0, hk]; omega
  | ⟨1, _⟩ => show win1_6.index t (1 : Fin 2) * 64 + 1 * j.val = j.val; rw [e1]; omega

theorem blkB_apply (c : Dev nD) (t : Fin cfg1.N) (k : Fin 1024) (b : Fin 4) (kp : Fin 2048)
    (hb : b.val = t.val / 64) (hk : kp.val = t.val % 2 * 1024 + k.val) :
    blkB V c t (ix3 0 0 k) = biasA V c (ix3 b (0 : Fin 1) kp) := by
  obtain ⟨e0, e1, e2⟩ := idx1_7 t
  unfold blkB iblk1
  rw [View.read_apply]
  show V c main_v19 _ = V c main_v19 _
  congr 1
  funext a
  apply Fin.ext
  match a with
  | ⟨0, _⟩ => show win1_7.index t (0 : Fin 3) * 1 + 1 * 0 = b.val; rw [e0, hb]; omega
  | ⟨1, _⟩ => show win1_7.index t (1 : Fin 3) * 1 + 1 * 0 = 0; rw [e1]
  | ⟨2, _⟩ => show win1_7.index t (2 : Fin 3) * 1024 + 1 * k.val = kp.val; rw [e2, hk]; omega

theorem ropeQ_eq (c : Dev nD) (t : Fin cfg1.N) (r : Fin 1024) (j : Fin 64) (b : Fin 4) (h : Fin 16) (q : Fin 2048)
    (hb : b.val = t.val / 64) (hh : h.val = t.val / 4 % 16) (hq : q.val = t.val / 2 % 2 * 1024 + r.val) :
    ropeK (blkQ V c t) (blkCq V c t) (blkSq V c t) r j = ropeAt (qq V c) (cosA V c) (sinA V c) b h q j := by
  unfold ropeK ropeAt
  exact congrArg₂ (· + ·) (congrArg₂ (· * ·) (blkQ_apply V c t r j b h q hb hh hq) (blkCq_apply V c t r j q hq))
    (congrArg₂ (· * ·) (congrArg (fun f : Fin 64 → EReal => Cert.Spec.rotHalf f j) (funext fun j' => blkQ_apply V c t r j' b h q hb hh hq))
      (blkSq_apply V c t r j q hq))
theorem ropeKk_eq (c : Dev nD) (t : Fin cfg1.N) (k : Fin 1024) (j : Fin 64) (b : Fin 4) (h : Fin 16) (kp : Fin 2048)
    (hb : b.val = t.val / 64) (hh : h.val = t.val / 4 % 16) (hk : kp.val = t.val % 2 * 1024 + k.val) :
    ropeK (blkK V c t) (blkCk V c t) (blkSk V c t) k j = ropeAt (kk V c) (cosA V c) (sinA V c) b h kp j := by
  unfold ropeK ropeAt
  exact congrArg₂ (· + ·) (congrArg₂ (· * ·) (blkK_apply V c t k j b h kp hb hh hk) (blkCk_apply V c t k j kp hk))
    (congrArg₂ (· * ·) (congrArg (fun f : Fin 64 → EReal => Cert.Spec.rotHalf f j) (funext fun j' => blkK_apply V c t k j' b h kp hb hh hk))
      (blkSk_apply V c t k j kp hk))

theorem blkScore_eq (c : Dev nD) (t : Fin cfg1.N) (r k : Fin 1024) (b : Fin 4) (h : Fin 16) (q kp : Fin 2048)
    (hb : b.val = t.val / 64) (hh : h.val = t.val / 4 % 16) (hq : q.val = t.val / 2 % 2 * 1024 + r.val)
    (hk : kp.val = t.val % 2 * 1024 + k.val) :
    blkScore (blkQ V c t) (blkK V c t) (blkCq V c t) (blkSq V c t) (blkCk V c t) (blkSk V c t) (blkB V c t) r k = scoreAt (qq V c) (kk V c) (cosA V c) (sinA V c) (biasA V c) b h q kp := by
  unfold blkScore scoreAt
  exact congrArg₂ (· + ·)
    (congrArg (· * Cert.Spec.eighth) (Finset.sum_congr rfl fun j' _ =>
      congrArg₂ (· * ·) (ropeQ_eq V c t r j' b h q hb hh hq) (ropeKk_eq V c t k j' b h kp hb hh hk)))
    (blkB_apply V c t k b kp hb hk)

theorem even_value (c : Dev nD) (n : ℕ) (hn : n < cfg1.N) (he : n % 2 = 0) (r : Fin 1024) (j : Fin 64) :
    (((outsAt1 V c n hn).2.1 : Vec Ideal S1024x1 .f32) (ix2 r 0), ((outsAt1 V c n hn).2.2.1 : Vec Ideal S1024x1 .f32) (ix2 r 0),
        ((outsAt1 V c n hn).2.2.2 : Vec Ideal S1024x64 .f32) (ix2 r j))
      = Cert.Spec.flashStep ((⊥ : EReal), (0 : EReal), (0 : EReal)) (fun k : Fin 1024 => blkScore (blkQ V c ⟨n, hn⟩) (blkK V c ⟨n, hn⟩) (blkCq V c ⟨n, hn⟩) (blkSq V c ⟨n, hn⟩) (blkCk V c ⟨n, hn⟩) (blkSk V c ⟨n, hn⟩) (blkB V c ⟨n, hn⟩) r k)
          (fun k : Fin 1024 => blkV V c ⟨n, hn⟩ (ix4 0 0 k j)) := by
  rw [outsAt1_A V c ⟨n, hn⟩ he]
  dsimp only
  rw [sout1_A_0_eq, sout1_A_1_eq, sout1_A_2_eq]
  refine (step_eq (blkQ V c ⟨n, hn⟩) (blkK V c ⟨n, hn⟩) (blkV V c ⟨n, hn⟩) (blkCq V c ⟨n, hn⟩) (blkSq V c ⟨n, hn⟩) (blkCk V c ⟨n, hn⟩) (blkSk V c ⟨n, hn⟩) (blkB V c ⟨n, hn⟩) (k1_pay4 (F := Ideal)) (k1_pay5 (F := Ideal)) (k1_pay6 (F := Ideal)) r j).trans ?_
  rw [pay4_apply, pay5_apply, pay6_apply]

theorem odd_value (c : Dev nD) (t : Fin cfg1.N) (h0 : ¬t.val % 2 = 0) (r : Fin 1024) (j : Fin 64) (b : Fin 4) (h : Fin 16) (q : Fin 2048)
    (hb : b.val = t.val / 64) (hh : h.val = t.val / 4 % 16) (hq : q.val = t.val / 2 % 2 * 1024 + r.val) :
    ((outsAt1 V c t.val t.isLt).1 : Vec Ideal S1x1x1024x64 .bf16) (ix4 0 0 r j)
      = Cert.Spec.flashOut (fun k : Fin 2048 => scoreAt (qq V c) (kk V c) (cosA V c) (sinA V c) (biasA V c) b h q k) (fun k : Fin 2048 => vv V c (ix4 b h k j)) := by
  have hN : cfg1.N = 256 := N_1
  have ht : t.val < cfg1.N := t.isLt
  have hpos : t.val - 1 < cfg1.N := by omega
  have he : (t.val - 1) % 2 = 0 := by omega

  have hslo : Cert.Spec.lo (fun k : Fin 2048 => scoreAt (qq V c) (kk V c) (cosA V c) (sinA V c) (biasA V c) b h q k)
      = fun k : Fin 1024 => blkScore (blkQ V c ⟨t.val - 1, hpos⟩) (blkK V c ⟨t.val - 1, hpos⟩) (blkCq V c ⟨t.val - 1, hpos⟩) (blkSq V c ⟨t.val - 1, hpos⟩) (blkCk V c ⟨t.val - 1, hpos⟩) (blkSk V c ⟨t.val - 1, hpos⟩) (blkB V c ⟨t.val - 1, hpos⟩) r k :=
    funext fun k => (blkScore_eq V c ⟨t.val - 1, hpos⟩ r k b h q ⟨k.val, by have := k.isLt; omega⟩
      (by show b.val = (t.val - 1) / 64; omega) (by show h.val = (t.val - 1) / 4 % 16; omega)
      (by show q.val = (t.val - 1) / 2 % 2 * 1024 + r.val; omega) (by show k.val = (t.val - 1) % 2 * 1024 + k.val; omega)).symm
  have hshi : Cert.Spec.hi (fun k : Fin 2048 => scoreAt (qq V c) (kk V c) (cosA V c) (sinA V c) (biasA V c) b h q k)
      = fun k : Fin 1024 => blkScore (blkQ V c t) (blkK V c t) (blkCq V c t) (blkSq V c t) (blkCk V c t) (blkSk V c t) (blkB V c t) r k :=
    funext fun k => (blkScore_eq V c t r k b h q ⟨k.val + 1024, by have := k.isLt; omega⟩ hb hh hq
      (by show k.val + 1024 = t.val % 2 * 1024 + k.val; omega)).symm
  have hvlo : Cert.Spec.lo (fun k : Fin 2048 => vv V c (ix4 b h k j)) = fun k : Fin 1024 => blkV V c ⟨t.val - 1, hpos⟩ (ix4 0 0 k j) :=
    funext fun k => (blkV_apply V c ⟨t.val - 1, hpos⟩ k j b h ⟨k.val, by have := k.isLt; omega⟩
      (by show b.val = (t.val - 1) / 64; omega) (by show h.val = (t.val - 1) / 4 % 16; omega)
      (by show k.val = (t.val - 1) % 2 * 1024 + k.val; omega)).symm
  have hvhi : Cert.Spec.hi (fun k : Fin 2048 => vv V c (ix4 b h k j)) = fun k : Fin 1024 => blkV V c t (ix4 0 0 k j) :=
    funext fun k => (blkV_apply V c t k j b h ⟨k.val + 1024, by have := k.isLt; omega⟩ hb hh
      (by show k.val + 1024 = t.val % 2 * 1024 + k.val; omega)).symm
  rw [outsAt1_C V c t h0]
  dsimp only
  rw [out1_C_8_eq]
  refine (pay3_apply _ _ r j).trans ?_
  have hs := step_eq (blkQ V c t) (blkK V c t) (blkV V c t) (blkCq V c t) (blkSq V c t) (blkCk V c t) (blkSk V c t) (blkB V c t)
    ((outsAt1 V c (t.val - 1) (Nat.lt_of_le_of_lt (Nat.sub_le _ _) t.isLt)).2.1)
    ((outsAt1 V c (t.val - 1) (Nat.lt_of_le_of_lt (Nat.sub_le _ _) t.isLt)).2.2.1)
    ((outsAt1 V c (t.val - 1) (Nat.lt_of_le_of_lt (Nat.sub_le _ _) t.isLt)).2.2.2) r j
  rw [even_value V c (t.val - 1) _ he r j] at hs
  refine (congrArg₂ Ideal.div (congrArg (fun p : EReal × EReal × EReal => p.2.2) hs) (congrArg (fun p : EReal × EReal × EReal => p.2.1) hs)).trans ?_
  unfold Cert.Spec.flashOut
  dsimp only
  rw [hslo, hshi, hvlo, hvhi]

def attnCols (qT kT vT : S4x16x2048x64.Idx → EReal) (cosT sinT : S2048x64.Idx → EReal) (biasT : S4x1x2048.Idx → EReal) :
    S4x16x2048x64.Idx → EReal :=
  fun i => Cert.Spec.flashOut
    (fun k : Fin 2048 => scoreAt qT kT cosT sinT biasT ⟨(i 0).val, (i 0).isLt⟩ ⟨(i 1).val, (i 1).isLt⟩ ⟨(i 2).val, (i 2).isLt⟩ k)
    (fun k : Fin 2048 => vT (ix4 (⟨(i 0).val, (i 0).isLt⟩ : Fin 4) (⟨(i 1).val, (i 1).isLt⟩ : Fin 16) k (⟨(i 3).val, (i 3).isLt⟩ : Fin 64)))

theorem attnCols_apply (qT kT vT : S4x16x2048x64.Idx → EReal) (cosT sinT : S2048x64.Idx → EReal) (biasT : S4x1x2048.Idx → EReal)
    (i : S4x16x2048x64.Idx) (b : Fin 4) (h : Fin 16) (q : Fin 2048) (j : Fin 64)
    (h0 : (i 0).val = b.val) (h1 : (i 1).val = h.val) (h2 : (i 2).val = q.val) (h3 : (i 3).val = j.val) :
    attnCols qT kT vT cosT sinT biasT i
      = Cert.Spec.flashOut (fun k : Fin 2048 => scoreAt qT kT cosT sinT biasT b h q k) (fun k : Fin 2048 => vT (ix4 b h k j)) := by
  unfold attnCols
  obtain rfl : (⟨(i 0).val, (i 0).isLt⟩ : Fin 4) = b := Fin.ext h0
  obtain rfl : (⟨(i 1).val, (i 1).isLt⟩ : Fin 16) = h := Fin.ext h1
  obtain rfl : (⟨(i 2).val, (i 2).isLt⟩ : Fin 2048) = q := Fin.ext h2
  obtain rfl : (⟨(i 3).val, (i 3).isLt⟩ : Fin 64) = j := Fin.ext h3
  rfl

theorem flushed1_8_eq (c : Dev nD) (t : Fin cfg1.N) (hf : (cfg1.win 8).flush t = true) :
    (dat1 V c).flushed 8 t
      = ((cfg1.win 8).blk t).view.read (Elt Ideal) (attnCols (qq V c) (kk V c) (vv V c) (cosA V c) (sinA V c) (biasA V c)) := by
  have h1 : t.val % 2 = 1 := (flush1_8 t).mp hf
  have h0 : ¬t.val % 2 = 0 := by omega
  have hN : cfg1.N = 256 := N_1
  have ht : t.val < cfg1.N := t.isLt
  obtain ⟨e0, e1, e2, e3⟩ := idx1_8 t
  show (cfg1.win 8).cut (grid1.coords t) ((dat1 V c).after 8 t) = _
  rw [after1_8]
  funext y
  obtain ⟨z0, z1, r, j, rfl⟩ : ∃ (z0 z1 : Fin 1) (r : Fin 1024) (j : Fin 64), y = ix4 z0 z1 r j := ⟨y 0, y 1, y 2, y 3, eq_ix4 y⟩
  obtain rfl : z0 = 0 := Subsingleton.elim _ _
  obtain rfl : z1 = 0 := Subsingleton.elim _ _
  have hr : r.val < 1024 := r.isLt
  rw [View.read_apply]
  refine (odd_value V c t h0 r j ⟨t.val / 64, by omega⟩ ⟨t.val / 4 % 16, by omega⟩ ⟨t.val / 2 % 2 * 1024 + r.val, by omega⟩ rfl rfl rfl).trans ?_
  refine (attnCols_apply _ _ _ _ _ _ _ _ _ _ j ?_ ?_ ?_ ?_).symm
  · show win1_8.index t (0 : Fin 4) * 1 + 1 * 0 = t.val / 64
    rw [e0]; omega
  · show win1_8.index t (1 : Fin 4) * 1 + 1 * 0 = t.val / 4 % 16
    rw [e1]; omega
  · show win1_8.index t (2 : Fin 4) * 1024 + 1 * r.val = t.val / 2 % 2 * 1024 + r.val
    rw [e2]; omega
  · show win1_8.index t (3 : Fin 4) * 64 + 1 * j.val = j.val
    rw [e3]; omega

theorem mem_blk1_8 (t : Fin cfg1.N) (i : S4x16x2048x64.Idx) :
    i ∈ ((cfg1.win 8).blk t).view.set ↔ ∀ a : Fin 4, win1_8.index t a * S1x1x1024x64.size a ≤ (i a).val ∧ (i a).val < win1_8.index t a * S1x1x1024x64.size a + S1x1x1024x64.size a := by
  show i ∈ ((View.whole main_v20).slice (win1_8.rect t)).set ↔ _
  rw [View.set_slice_whole, Rect.mem_set_unit]
  exact Iff.rfl

theorem cover1_8 (i : S4x16x2048x64.Idx) : ∃ t : Fin cfg1.N, (cfg1.win 8).flush t = true ∧ i ∈ ((cfg1.win 8).blk t).view.set := by
  have hi0 : (i 0).val < 4 := (i 0).isLt
  have hi1 : (i 1).val < 16 := (i 1).isLt
  have hi2 : (i 2).val < 2048 := (i 2).isLt
  have hi3 : (i 3).val < 64 := (i 3).isLt
  have hN : cfg1.N = 256 := N_1
  have hlt : (((i 0).val * 16 + (i 1).val) * 2 + (i 2).val / 1024) * 2 + 1 < cfg1.N := by rw [hN]; omega
  have hv : (⟨(((i 0).val * 16 + (i 1).val) * 2 + (i 2).val / 1024) * 2 + 1, hlt⟩ : Fin cfg1.N).val
      = (((i 0).val * 16 + (i 1).val) * 2 + (i 2).val / 1024) * 2 + 1 := rfl
  obtain ⟨e0, e1, e2, e3⟩ := idx1_8 ⟨(((i 0).val * 16 + (i 1).val) * 2 + (i 2).val / 1024) * 2 + 1, hlt⟩
  refine ⟨⟨(((i 0).val * 16 + (i 1).val) * 2 + (i 2).val / 1024) * 2 + 1, hlt⟩, (flush1_8 _).mpr (by rw [hv]; omega), ?_⟩
  rw [mem_blk1_8]
  intro a
  match a with
  | ⟨0, _⟩ =>
    show win1_8.index _ (0 : Fin 4) * 1 ≤ (i 0).val ∧ (i 0).val < win1_8.index _ (0 : Fin 4) * 1 + 1
    rw [e0, hv]; omega
  | ⟨1, _⟩ =>
    show win1_8.index _ (1 : Fin 4) * 1 ≤ (i 1).val ∧ (i 1).val < win1_8.index _ (1 : Fin 4) * 1 + 1
    rw [e1, hv]; omega
  | ⟨2, _⟩ =>
    show win1_8.index _ (2 : Fin 4) * 1024 ≤ (i 2).val ∧ (i 2).val < win1_8.index _ (2 : Fin 4) * 1024 + 1024
    rw [e2, hv]; omega
  | ⟨3, _⟩ =>
    show win1_8.index _ (3 : Fin 4) * 64 ≤ (i 3).val ∧ (i 3).val < win1_8.index _ (3 : Fin 4) * 64 + 64
    rw [e3]; omega

theorem final1_8 (c : Dev nD) (b : Fin 4) (h : Fin 16) (q : Fin 2048) (j : Fin 64) :
    ((dat1 V c).arrAt 8 cfg1.N : S4x16x2048x64.Idx → EReal) (ix4 b h q j)
      = Cert.Spec.flashOut (fun k : Fin 2048 => scoreAt (qq V c) (kk V c) (cosA V c) (sinA V c) (biasA V c) b h q k) (fun k : Fin 2048 => vv V c (ix4 b h k j)) := by
  rw [(dat1 V c).arrAt_eq_of_cover 8 (attnCols (qq V c) (kk V c) (vv V c) (cosA V c) (sinA V c) (biasA V c))
    (fun t hf => flushed1_8_eq V c t hf) cover1_8]
  exact attnCols_apply _ _ _ _ _ _ _ b h q j rfl rfl rfl rfl

end Cert.KernelIdeal.Gen

end
-- ==== Proof.KVal.lean ====
import proofs.«406353_j58076547776991_3_alg».proof.Proof.Run
import proofs.«406353_j58076547776991_3_alg».proof.Proof.KArgs
import proofs.«406353_j58076547776991_3_alg».proof.Proof.Spec
import proofs.«406353_j58076547776991_3_alg».proof.Proof.KHead
import proofs.«406353_j58076547776991_3_alg».proof.Proof.KTail
import proofs.«406353_j58076547776991_3_alg».proof.Proof.Val1

noncomputable section

namespace Cert.KernelIdeal.Gen

open Idealize.ShloMosaic Idealize.ShloMosaic.TcCoe Idealize.SL.Sem Idealize.ShloMosaic.ValueIdx

variable (m : (ℓ : Loc nD τ sig) → Buf (Elt Ideal) ℓ)

theorem kv_rope_q (c : Dev nD) (b : Fin 4) (h : Fin 16) (s : Fin 2048) (j : Fin 64) :
    ropeAt (qq (V3 m) c) (cosA (V3 m) c) (sinA (V3 m) c) b h s j
      = Cert.Spec.rope (Cert.Spec.proj (aX m c) (aQw m c) (aQb m c)) (aCos m c) (aSin m c) b h s j := by
  have e1 : qq (V3 m) c (ix4 b h s j) = Cert.Spec.proj (aX m c) (aQw m c) (aQb m c) b h s j := kh_q m c b h s j
  have e2 : cosA (V3 m) c (ix2 s j) = aCos m c (ix4 0 0 s j) := kh_cos m c s j
  have e3 : sinA (V3 m) c (ix2 s j) = aSin m c (ix4 0 0 s j) := kh_sin m c s j
  have e4 : (fun j' : Fin 64 => qq (V3 m) c (ix4 b h s j')) = fun j' => Cert.Spec.proj (aX m c) (aQw m c) (aQb m c) b h s j' :=
    funext fun j' => kh_q m c b h s j'
  unfold ropeAt Cert.Spec.rope
  rw [e1, e2, e3, e4]

theorem kv_rope_k (c : Dev nD) (b : Fin 4) (h : Fin 16) (s : Fin 2048) (j : Fin 64) :
    ropeAt (kk (V3 m) c) (cosA (V3 m) c) (sinA (V3 m) c) b h s j
      = Cert.Spec.rope (Cert.Spec.proj (aX m c) (aKw m c) (aKb m c)) (aCos m c) (aSin m c) b h s j := by
  have e1 : kk (V3 m) c (ix4 b h s j) = Cert.Spec.proj (aX m c) (aKw m c) (aKb m c) b h s j := kh_k m c b h s j
  have e2 : cosA (V3 m) c (ix2 s j) = aCos m c (ix4 0 0 s j) := kh_cos m c s j
  have e3 : sinA (V3 m) c (ix2 s j) = aSin m c (ix4 0 0 s j) := kh_sin m c s j
  have e4 : (fun j' : Fin 64 => kk (V3 m) c (ix4 b h s j')) = fun j' => Cert.Spec.proj (aX m c) (aKw m c) (aKb m c) b h s j' :=
    funext fun j' => kh_k m c b h s j'
  unfold ropeAt Cert.Spec.rope
  rw [e1, e2, e3, e4]

theorem kv_score (c : Dev nD) (b : Fin 4) (h : Fin 16) (q k : Fin 2048) :
    scoreAt (qq (V3 m) c) (kk (V3 m) c) (cosA (V3 m) c) (sinA (V3 m) c) (biasA (V3 m) c) b h q k
      = Cert.Spec.score (Cert.Spec.rope (Cert.Spec.proj (aX m c) (aQw m c) (aQb m c)) (aCos m c) (aSin m c))
          (Cert.Spec.rope (Cert.Spec.proj (aX m c) (aKw m c) (aKb m c)) (aCos m c) (aSin m c)) (aMask m c) b h q k := by
  have eb : biasA (V3 m) c (ix3 b (0 : Fin 1) k) = Cert.Spec.maskBias (aMask m c) b k := kh_bias m c b k
  unfold scoreAt Cert.Spec.score
  rw [eb]
  refine congrArg (fun z => z * Cert.Spec.eighth + Cert.Spec.maskBias (aMask m c) b k) (Finset.sum_congr rfl fun j' _ => ?_)
  rw [kv_rope_q, kv_rope_k]

theorem kv_attn (c : Dev nD) (b : Fin 4) (h : Fin 16) (q : Fin 2048) (j : Fin 64) :
    kAttn m c (ix4 b h q j)
      = Cert.Spec.attnWith Cert.Spec.flashOut (Cert.Spec.rope (Cert.Spec.proj (aX m c) (aQw m c) (aQb m c)) (aCos m c) (aSin m c))
          (Cert.Spec.rope (Cert.Spec.proj (aX m c) (aKw m c) (aKb m c)) (aCos m c) (aSin m c))
          (Cert.Spec.proj (aX m c) (aVw m c) (aVb m c)) (aMask m c) b h q j := by
  have e0 : kAttn m c (ix4 b h q j) = ((dat1 (V3 m) c).arrAt 8 cfg1.N : S4x16x2048x64.Idx → EReal) (ix4 b h q j) :=
    congrFun (W4_out m c) (ix4 b h q j)
  rw [e0, final1_8 (V3 m) c b h q j]
  unfold Cert.Spec.attnWith
  exact congrArg₂ Cert.Spec.flashOut (funext fun k => kv_score m c b h q k) (funext fun k => kh_v m c b h k j)

theorem kernel_value (c : Dev nD) :
    (W7 m c (Proc.devRef .tc main_v27) : S4x2048x1024.Idx → EReal)
      = Cert.Spec.whole Cert.Spec.flashOut (aX m c) (aCos m c) (aSin m c) (aMask m c) (aQw m c) (aQb m c) (aKw m c) (aKb m c) (aVw m c) (aVb m c) (aOw m c) (aOb m c) :=
  kt_whole m c _ (kv_attn m c)

end Cert.KernelIdeal.Gen

end
-- ==== Proof.RefHeads.lean ====
import proofs.«406353_j58076547776991_3_alg».proof.Proof.Gen.ReferenceIdeal.Read
import proofs.«406353_j58076547776991_3_alg».proof.Proof.Spec
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Read Idealize.ShloMosaic Idealize.ShloMosaic.ValueIdx Cert.Spec

theorem proj_lidx (bi : Fin 4) (h : Fin 16) (s : Fin 2048) (j : Fin 64) (k : Fin 1024) :
    lidx_main_v12 (idx_main_v16 (idx_main_v17 (ix4 bi h s j))) k = ix3 bi s k :=
  funext fun a => Fin.ext (by
    have hb := bi.isLt; have hh := h.isLt; have hs := s.isLt; have hj := j.isLt
    match a with
    | ⟨0, _⟩ =>
      show (((bi.val * 2048 + s.val) * 16 + h.val) * 64 + j.val) / 2097152 = bi.val
      omega
    | ⟨1, _⟩ =>
      show (((bi.val * 2048 + s.val) * 16 + h.val) * 64 + j.val) / 1024 % 2048 = s.val
      omega
    | ⟨2, _⟩ => rfl)

theorem proj_ridx (bi : Fin 4) (h : Fin 16) (s : Fin 2048) (j : Fin 64) (k : Fin 1024) :
    ridx_main_v12 (idx_main_v16 (idx_main_v17 (ix4 bi h s j))) k = ix2 (headCol h j) k :=
  funext fun a => Fin.ext (by
    have hb := bi.isLt; have hh := h.isLt; have hs := s.isLt; have hj := j.isLt
    match a with
    | ⟨0, _⟩ =>
      show (((bi.val * 2048 + s.val) * 16 + h.val) * 64 + j.val) % 1024 = h.val * 64 + j.val
      omega
    | ⟨1, _⟩ => rfl)

theorem proj_bidx (bi : Fin 4) (h : Fin 16) (s : Fin 2048) (j : Fin 64) :
    idx_main_v13 (idx_main_v14 (idx_main_v16 (idx_main_v17 (ix4 bi h s j)))) = ix1 (headCol h j) :=
  funext fun a => Fin.ext (by
    have hb := bi.isLt; have hh := h.isLt; have hs := s.isLt; have hj := j.isLt
    match a with
    | ⟨0, _⟩ =>
      show (((bi.val * 2048 + s.val) * 16 + h.val) * 64 + j.val) % 1024 = h.val * 64 + j.val
      omega)

theorem ref_v (x0 : (⟨S4x2048x1024, .f32⟩ : BufTy).Contents (Elt Ideal)) (x8 : (⟨S1024x1024, .f32⟩ : BufTy).Contents (Elt Ideal))
    (x9 : (⟨S1024, .f32⟩ : BufTy).Contents (Elt Ideal)) (bi : Fin 4) (h : Fin 16) (s : Fin 2048) (j : Fin 64) :
    val_main_v17 (F := Ideal) x0 x8 x9 (ix4 bi h s j) = proj x0 x8 x9 bi h s j := by
  rw [val_main_v17_apply, val_main_v16_apply, val_main_v15_apply, val_main_v12_apply, val_main_v14_apply, val_main_v13_apply]
  simp only [proj_lidx, proj_ridx, proj_bidx, Ideal.addf_def]
  rfl

theorem v5_eq_v17 (x0 : (⟨S4x2048x1024, .f32⟩ : BufTy).Contents (Elt Ideal)) (w : (⟨S1024x1024, .f32⟩ : BufTy).Contents (Elt Ideal))
    (b : (⟨S1024, .f32⟩ : BufTy).Contents (Elt Ideal)) : val_main_v5 (F := Ideal) x0 w b = val_main_v17 (F := Ideal) x0 w b := rfl
theorem cs_idx18 (bi : Fin 4) (h : Fin 16) (s : Fin 2048) (j : Fin 64) : idx_main_v18 (ix4 bi h s j) = ix4 0 0 s j :=
  funext fun a => Fin.ext (by match a with | ⟨0, _⟩ => rfl | ⟨1, _⟩ => rfl | ⟨2, _⟩ => rfl | ⟨3, _⟩ => rfl)
theorem cs_idx24 (bi : Fin 4) (h : Fin 16) (s : Fin 2048) (j : Fin 64) : idx_main_v24 (ix4 bi h s j) = ix4 0 0 s j :=
  funext fun a => Fin.ext (by match a with | ⟨0, _⟩ => rfl | ⟨1, _⟩ => rfl | ⟨2, _⟩ => rfl | ⟨3, _⟩ => rfl)

theorem hi_idx21 (bi : Fin 4) (h : Fin 16) (s : Fin 2048) (j : Fin 32) :
    idx_main_v21 (ix4 bi h s j) = ix4 bi h s (⟨j.val + 32, by have := j.isLt; omega⟩ : Fin 64) :=
  funext fun a => Fin.ext (by
    match a with
    | ⟨0, _⟩ => rfl
    | ⟨1, _⟩ => rfl
    | ⟨2, _⟩ => rfl
    | ⟨3, _⟩ =>
      show 32 + j.val = j.val + 32
      omega)
theorem lo_idx20 (bi : Fin 4) (h : Fin 16) (s : Fin 2048) (j : Fin 32) :
    idx_main_v20 (ix4 bi h s j) = ix4 bi h s (⟨j.val, by have := j.isLt; omega⟩ : Fin 64) :=
  funext fun a => Fin.ext (by match a with | ⟨0, _⟩ => rfl | ⟨1, _⟩ => rfl | ⟨2, _⟩ => rfl | ⟨3, _⟩ => rfl)

theorem v23_at (x0 : (⟨S4x2048x1024, .f32⟩ : BufTy).Contents (Elt Ideal)) (x4 : (⟨S1024x1024, .f32⟩ : BufTy).Contents (Elt Ideal))
    (x5 : (⟨S1024, .f32⟩ : BufTy).Contents (Elt Ideal)) (bi : Fin 4) (h : Fin 16) (s : Fin 2048) (j : Fin 64) :
    val_main_v23 (F := Ideal) x0 x4 x5 (ix4 bi h s j)
      = rotHalf (fun j' : Fin 64 => val_main_v5 (F := Ideal) x0 x4 x5 (ix4 bi h s j')) j := by
  unfold rotHalf val_main_v23
  by_cases hj : j.val < 32
  · rw [dif_pos hj]
    rw [concatenate_pair_apply_left (t := S4x16x2048x64) (s₁ := S4x16x2048x32) (s₂ := S4x16x2048x32) 3 _ _ _ (ix4 bi h s j) rfl
      (ix4 bi h s (⟨j.val, hj⟩ : Fin 32)) (fun b => match b with | ⟨0, _⟩ => rfl | ⟨1, _⟩ => rfl | ⟨2, _⟩ => rfl | ⟨3, _⟩ => rfl)]
    rw [val_main_v22_apply, val_main_v21_apply, hi_idx21]
    rfl
  · rw [dif_neg hj]
    have hj2 := j.isLt
    rw [concatenate_pair_apply_right (t := S4x16x2048x64) (s₁ := S4x16x2048x32) (s₂ := S4x16x2048x32) 3 _ _ _ (ix4 bi h s j) rfl rfl
      (ix4 bi h s (⟨j.val - 32, by omega⟩ : Fin 32))
      (fun b hb => match b, hb with | ⟨0, _⟩, _ => rfl | ⟨1, _⟩, _ => rfl | ⟨2, _⟩, _ => rfl | ⟨3, _⟩, hb => absurd rfl hb)
      (by show (j.val - 32) + 32 = j.val; omega)]
    rw [val_main_v20_apply, lo_idx20]

theorem v26_rope (x0 : (⟨S4x2048x1024, .f32⟩ : BufTy).Contents (Elt Ideal)) (x1 x2 : (⟨S1x1x2048x64, .f32⟩ : BufTy).Contents (Elt Ideal))
    (x4 : (⟨S1024x1024, .f32⟩ : BufTy).Contents (Elt Ideal)) (x5 : (⟨S1024, .f32⟩ : BufTy).Contents (Elt Ideal))
    (bi : Fin 4) (h : Fin 16) (s : Fin 2048) (j : Fin 64) :
    val_main_v26 (F := Ideal) x0 x1 x2 x4 x5 (ix4 bi h s j)
      = rope (fun bi h s j => val_main_v5 (F := Ideal) x0 x4 x5 (ix4 bi h s j)) x1 x2 bi h s j := by
  rw [val_main_v26_apply, val_main_v19_apply, val_main_v25_apply, val_main_v18_apply, val_main_v24_apply, v23_at, cs_idx18, cs_idx24]
  simp only [Ideal.addf_def, Ideal.mulf_def]
  rfl

theorem v35_eq_v26 (x0 : (⟨S4x2048x1024, .f32⟩ : BufTy).Contents (Elt Ideal)) (x1 x2 : (⟨S1x1x2048x64, .f32⟩ : BufTy).Contents (Elt Ideal))
    (w : (⟨S1024x1024, .f32⟩ : BufTy).Contents (Elt Ideal)) (b : (⟨S1024, .f32⟩ : BufTy).Contents (Elt Ideal)) :
    val_main_v35 (F := Ideal) x0 x1 x2 w b = val_main_v26 (F := Ideal) x0 x1 x2 w b := rfl

theorem v5_proj (x0 : (⟨S4x2048x1024, .f32⟩ : BufTy).Contents (Elt Ideal)) (w : (⟨S1024x1024, .f32⟩ : BufTy).Contents (Elt Ideal))
    (b : (⟨S1024, .f32⟩ : BufTy).Contents (Elt Ideal)) :
    (fun (bi : Fin 4) (h : Fin 16) (s : Fin 2048) (j : Fin 64) => val_main_v5 (F := Ideal) x0 w b (ix4 bi h s j)) = proj x0 w b := by
  funext bi h s j
  rw [v5_eq_v17, ref_v]

theorem ref_q (x0 : (⟨S4x2048x1024, .f32⟩ : BufTy).Contents (Elt Ideal)) (x1 x2 : (⟨S1x1x2048x64, .f32⟩ : BufTy).Contents (Elt Ideal))
    (x4 : (⟨S1024x1024, .f32⟩ : BufTy).Contents (Elt Ideal)) (x5 : (⟨S1024, .f32⟩ : BufTy).Contents (Elt Ideal))
    (bi : Fin 4) (h : Fin 16) (s : Fin 2048) (j : Fin 64) :
    val_main_v26 (F := Ideal) x0 x1 x2 x4 x5 (ix4 bi h s j) = rope (proj x0 x4 x5) x1 x2 bi h s j := by
  rw [v26_rope, v5_proj]

theorem ref_k (x0 : (⟨S4x2048x1024, .f32⟩ : BufTy).Contents (Elt Ideal)) (x1 x2 : (⟨S1x1x2048x64, .f32⟩ : BufTy).Contents (Elt Ideal))
    (x6 : (⟨S1024x1024, .f32⟩ : BufTy).Contents (Elt Ideal)) (x7 : (⟨S1024, .f32⟩ : BufTy).Contents (Elt Ideal))
    (bi : Fin 4) (h : Fin 16) (s : Fin 2048) (j : Fin 64) :
    val_main_v35 (F := Ideal) x0 x1 x2 x6 x7 (ix4 bi h s j) = rope (proj x0 x6 x7) x1 x2 bi h s j := by
  rw [v35_eq_v26, ref_q]

theorem word_64 : Ideal.ofBits .f32 0x42800000#32 = ((64 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_eighth : Ideal.ofBits .f32 0x3E000000#32 = ((1 / 8 : ℝ) : EReal) := by
  simp [Ideal.ofBits, Ideal.ieee, -EReal.coe_mul]; norm_num

theorem sqrt_64 : Real.sqrt 64 = 8 := by
  rw [show (64 : ℝ) = 8 ^ 2 by norm_num]
  exact Real.sqrt_sq (by norm_num)

theorem scale_eq : Ideal.div (Ideal.ofBits .f32 0x3F800000#32) (Ideal.sqrt (Ideal.ofBits .f32 0x42800000#32)) = eighth := by
  unfold eighth
  rw [word_64, word_one, word_eighth, Ideal.sqrt_coe, if_neg (by norm_num), sqrt_64, Ideal.div_coe (by norm_num), ← EReal.coe_mul]
  norm_num

theorem score_lidx (bi : Fin 4) (h : Fin 16) (q k : Fin 2048) (j : Fin 64) : lidx_main_v43 (ix4 bi h q k) j = ix4 bi h q j :=
  funext fun a => Fin.ext (by match a with | ⟨0, _⟩ => rfl | ⟨1, _⟩ => rfl | ⟨2, _⟩ => rfl | ⟨3, _⟩ => rfl)
theorem score_ridx (bi : Fin 4) (h : Fin 16) (q k : Fin 2048) (j : Fin 64) : ridx_main_v43 (ix4 bi h q k) j = ix4 bi h k j :=
  funext fun a => Fin.ext (by match a with | ⟨0, _⟩ => rfl | ⟨1, _⟩ => rfl | ⟨2, _⟩ => rfl | ⟨3, _⟩ => rfl)

theorem score_midx (bi : Fin 4) (h : Fin 16) (q k : Fin 2048) : idx_main_v38 (idx_main_v46 (ix4 bi h q k)) = ix2 bi k :=
  funext fun a => Fin.ext (by match a with | ⟨0, _⟩ => rfl | ⟨1, _⟩ => rfl)

theorem ref_score (x0 : (⟨S4x2048x1024, .f32⟩ : BufTy).Contents (Elt Ideal)) (x1 x2 : (⟨S1x1x2048x64, .f32⟩ : BufTy).Contents (Elt Ideal))
    (x3 : (⟨S4x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (bi : Fin 4) (h : Fin 16) (q k : Fin 2048) :
    val_main_v47 (F := Ideal) x0 x1 x2 x3 x4 x5 x6 x7 (ix4 bi h q k)
      = score (rope (proj x0 x4 x5) x1 x2) (rope (proj x0 x6 x7) x1 x2) x3 bi h q k := by
  rw [val_main_v47_apply, val_main_v45_apply, val_main_v43_apply, val_main_v44_apply, val_main_v42_apply, val_main_cst_2_apply,
    val_main_v41_apply, val_main_cst_1_apply, val_main_v46_apply, val_main_v40_apply, val_main_v38_apply, val_main_v37_apply,
    val_main_v36_apply, val_main_cst_apply, val_main_v39_apply, val_main_cst_0_apply]
  simp only [score_lidx, score_ridx, score_midx, ref_q, ref_k, Ideal.addf_def, Ideal.mulf_def, Ideal.subf_def, Ideal.hostDivf_def,
    Ideal.hostUnary_sqrt_def, Ideal.ofBits_def, scale_eq]
  rfl

end Cert.RefRead

end
-- ==== Proof.RefTail.lean ====
import proofs.«406353_j58076547776991_3_alg».proof.Proof.Gen.ReferenceIdeal.Read
import proofs.«406353_j58076547776991_3_alg».proof.Proof.Spec
import Idealize.ShloMosaic.PureOps.Reduce
import Idealize.ShloMosaic.Lib.ValueIdx
import Idealize.ShloMosaic.PureOps.Ideal.Laws

noncomputable section

namespace Cert.RefRead

open Cert.ReferenceIdeal Cert.ReferenceIdeal.Gen Cert.ReferenceIdeal.Read Idealize.ShloMosaic Idealize.ShloMosaic.ValueIdx

variable (x0 : (⟨S4x2048x1024, .f32⟩ : BufTy).Contents (Elt Ideal)) (x1 x2 : (⟨S1x1x2048x64, .f32⟩ : BufTy).Contents (Elt Ideal))
  (x3 : (⟨S4x2048, .f32⟩ : BufTy).Contents (Elt Ideal)) (x4 : (⟨S1024x1024, .f32⟩ : BufTy).Contents (Elt Ideal))
  (x5 : (⟨S1024, .f32⟩ : BufTy).Contents (Elt Ideal)) (x6 : (⟨S1024x1024, .f32⟩ : BufTy).Contents (Elt Ideal))
  (x7 : (⟨S1024, .f32⟩ : BufTy).Contents (Elt Ideal)) (x8 : (⟨S1024x1024, .f32⟩ : BufTy).Contents (Elt Ideal))
  (x9 : (⟨S1024, .f32⟩ : BufTy).Contents (Elt Ideal)) (x10 : (⟨S1024x1024, .f32⟩ : BufTy).Contents (Elt Ideal))
  (x11 : (⟨S1024, .f32⟩ : BufTy).Contents (Elt Ideal))

theorem negInf_eq_bot : Ideal.ofBits .f32 0xFF800000#32 = (⊥ : EReal) := by simp [Ideal.ofBits, Ideal.ieee]

abbrev scoreRow (bi : Fin 4) (h : Fin 16) (q : Fin 2048) : Fin 2048 → EReal :=
  fun k => val_main_v47 (F := Ideal) x0 x1 x2 x3 x4 x5 x6 x7 (ix4 bi h q k)

theorem ref_rowMax (bi : Fin 4) (h : Fin 16) (q : Fin 2048) :
    val_main_v48 (F := Ideal) x0 x1 x2 x3 x4 x5 x6 x7 (ix3 bi h q)
      = Cert.Spec.rowMax ⊥ (scoreRow x0 x1 x2 x3 x4 x5 x6 x7 bi h q) := by
  unfold val_main_v48
  have hr : S4x16x2048x2048.Reduces [3] S4x16x2048 := by decide
  rw [Host.reduce_eq_fold_single FloatOps.maximumf _ _ reducesTo_S4x16x2048x2048_S4x16x2048_d3 hr h_S_]
  have hf : (val_main_v47 (F := Ideal) x0 x1 x2 x3 x4 x5 x6 x7 ∘ hr.lift (ix3 bi h q)) = scoreRow x0 x1 x2 x3 x4 x5 x6 x7 bi h q :=
    funext fun k => congrArg (val_main_v47 (F := Ideal) x0 x1 x2 x3 x4 x5 x6 x7) (funext fun c => Fin.ext (by
      match c with | ⟨0, _⟩ => rfl | ⟨1, _⟩ => rfl | ⟨2, _⟩ => rfl | ⟨3, _⟩ => rfl))
  rw [hf, val_main_cst_3_apply, Ideal.ofBits_def, negInf_eq_bot]
  rfl

theorem ref_shift (bi : Fin 4) (h : Fin 16) (q : Fin 2048) :
    val_main_v50 (F := Ideal) x0 x1 x2 x3 x4 x5 x6 x7 (ix3 bi h q)
      = max ⊥ (Cert.Spec.rowMax ⊥ (scoreRow x0 x1 x2 x3 x4 x5 x6 x7 bi h q)) := by
  rw [val_main_v50_apply, val_main_v49_apply, val_main_cst_4_apply, ref_rowMax, Ideal.ofBits_def, negInf_eq_bot, Ideal.maximumf_def]

theorem ref_exp (bi : Fin 4) (h : Fin 16) (q k : Fin 2048) :
    val_main_v54 (F := Ideal) x0 x1 x2 x3 x4 x5 x6 x7 (ix4 bi h q k)
      = Ideal.exp (scoreRow x0 x1 x2 x3 x4 x5 x6 x7 bi h q k - max ⊥ (Cert.Spec.rowMax ⊥ (scoreRow x0 x1 x2 x3 x4 x5 x6 x7 bi h q))) := by
  have e : idx_main_v51 (idx_main_v52 (ix4 bi h q k)) = ix3 bi h q :=
    funext fun a => Fin.ext (by match a with | ⟨0, _⟩ => rfl | ⟨1, _⟩ => rfl | ⟨2, _⟩ => rfl)
  rw [val_main_v54_apply, val_main_v53_apply, val_main_v52_apply, val_main_v51_apply, e, ref_shift,
    Ideal.hostUnary_exp_def, Ideal.subf_def]

theorem ref_denom (bi : Fin 4) (h : Fin 16) (q : Fin 2048) :
    val_main_v55 (F := Ideal) x0 x1 x2 x3 x4 x5 x6 x7 (ix3 bi h q)
      = 0 + ∑ k : Fin 2048, Ideal.exp (scoreRow x0 x1 x2 x3 x4 x5 x6 x7 bi h q k - max ⊥ (Cert.Spec.rowMax ⊥ (scoreRow x0 x1 x2 x3 x4 x5 x6 x7 bi h q))) := by
  have e : ∀ k : Fin 2048, idx_main_v55 (ix3 bi h q) k = ix4 bi h q k := fun k =>
    funext fun a => Fin.ext (by match a with | ⟨0, _⟩ => rfl | ⟨1, _⟩ => rfl | ⟨2, _⟩ => rfl | ⟨3, _⟩ => rfl)
  rw [val_main_v55_apply, val_main_cst_5_apply, Ideal.ofBits_def, Ideal.ofBits_zero_f32]
  simp only [e, ref_exp]

theorem ref_weight (bi : Fin 4) (h : Fin 16) (q k : Fin 2048) :
    val_main_v58 (F := Ideal) x0 x1 x2 x3 x4 x5 x6 x7 (ix4 bi h q k)
      = Ideal.div (Ideal.exp (scoreRow x0 x1 x2 x3 x4 x5 x6 x7 bi h q k - max ⊥ (Cert.Spec.rowMax ⊥ (scoreRow x0 x1 x2 x3 x4 x5 x6 x7 bi h q))))
          (0 + ∑ k' : Fin 2048, Ideal.exp (scoreRow x0 x1 x2 x3 x4 x5 x6 x7 bi h q k' - max ⊥ (Cert.Spec.rowMax ⊥ (scoreRow x0 x1 x2 x3 x4 x5 x6 x7 bi h q)))) := by
  have e : idx_main_v56 (idx_main_v57 (ix4 bi h q k)) = ix3 bi h q :=
    funext fun a => Fin.ext (by match a with | ⟨0, _⟩ => rfl | ⟨1, _⟩ => rfl | ⟨2, _⟩ => rfl)
  rw [val_main_v58_apply, val_main_v57_apply, val_main_v56_apply, e, ref_exp, ref_denom, Ideal.hostDivf_def]

theorem ref_attn (bi : Fin 4) (h : Fin 16) (q : Fin 2048) (j : Fin 64) :
    val_main_v59 (F := Ideal) x0 x1 x2 x3 x4 x5 x6 x7 x8 x9 (ix4 bi h q j)
      = Cert.Spec.softOut (fun k => val_main_v47 (F := Ideal) x0 x1 x2 x3 x4 x5 x6 x7 (ix4 bi h q k))
          (fun k => val_main_v17 (F := Ideal) x0 x8 x9 (ix4 bi h k j)) := by
  have el : ∀ k : Fin 2048, lidx_main_v59 (ix4 bi h q j) k = ix4 bi h q k := fun k =>
    funext fun a => Fin.ext (by match a with | ⟨0, _⟩ => rfl | ⟨1, _⟩ => rfl | ⟨2, _⟩ => rfl | ⟨3, _⟩ => rfl)
  have er : ∀ k : Fin 2048, ridx_main_v59 (ix4 bi h q j) k = ix4 bi h k j := fun k =>
    funext fun a => Fin.ext (by match a with | ⟨0, _⟩ => rfl | ⟨1, _⟩ => rfl | ⟨2, _⟩ => rfl | ⟨3, _⟩ => rfl)
  rw [val_main_v59_apply]
  unfold Cert.Spec.softOut
  simp only [el, er, ref_weight]

theorem ref_merge (bi : Fin 4) (s : Fin 2048) (d : Fin 1024) :
    val_main_v61 (F := Ideal) x0 x1 x2 x3 x4 x5 x6 x7 x8 x9 (ix3 bi s d)
      = val_main_v59 (F := Ideal) x0 x1 x2 x3 x4 x5 x6 x7 x8 x9 (ix4 bi (Cert.Spec.colHead d) s (Cert.Spec.colIn d)) := by
  have hb := bi.isLt
  have hs := s.isLt
  have hd := d.isLt
  have e : idx_main_v60 (idx_main_v61 (ix3 bi s d)) = ix4 bi (Cert.Spec.colHead d) s (Cert.Spec.colIn d) :=
    funext fun a => Fin.ext (by
      match a with
      | ⟨0, _⟩ => show ((bi.val * 2048 + s.val) * 1024 + d.val) / 2097152 = bi.val; omega
      | ⟨1, _⟩ => show ((bi.val * 2048 + s.val) * 1024 + d.val) / 64 % 16 = d.val / 64; omega
      | ⟨2, _⟩ => show ((bi.val * 2048 + s.val) * 1024 + d.val) / 1024 % 2048 = s.val; omega
      | ⟨3, _⟩ => show ((bi.val * 2048 + s.val) * 1024 + d.val) % 64 = d.val % 64; omega)
  rw [val_main_v61_apply, val_main_v60_apply, e]

theorem ref_out (i : S4x2048x1024.Idx) :
    val_main_v65 (F := Ideal) x0 x1 x2 x3 x4 x5 x6 x7 x8 x9 x10 x11 i
      = Cert.Spec.outProj (fun bi h q j => Cert.Spec.softOut (fun k => val_main_v47 (F := Ideal) x0 x1 x2 x3 x4 x5 x6 x7 (ix4 bi h q k))
          (fun k => val_main_v17 (F := Ideal) x0 x8 x9 (ix4 bi h k j))) x10 x11 i := by
  have el : ∀ d : Fin 1024, lidx_main_v62 i d = ix3 (i 0) (i 1) d := fun d =>
    funext fun a => Fin.ext (by match a with | ⟨0, _⟩ => rfl | ⟨1, _⟩ => rfl | ⟨2, _⟩ => rfl)
  have er : ∀ d : Fin 1024, ridx_main_v62 i d = ix2 (i 2) d := fun d =>
    funext fun a => Fin.ext (by match a with | ⟨0, _⟩ => rfl | ⟨1, _⟩ => rfl)
  have eb : idx_main_v63 (idx_main_v64 i) = ix1 (i 2) :=
    funext fun a => Fin.ext (by match a with | ⟨0, _⟩ => rfl)
  rw [val_main_v65_apply, val_main_v62_apply, val_main_v64_apply, val_main_v63_apply, eb, Ideal.addf_def]
  unfold Cert.Spec.outProj
  simp only [el, er]
  refine congrArg (· + _) (Finset.sum_congr rfl fun d _ => congrArg (· * _) ?_)
  exact (ref_merge x0 x1 x2 x3 x4 x5 x6 x7 x8 x9 (i 0) (i 1) d).trans
    (ref_attn x0 x1 x2 x3 x4 x5 x6 x7 x8 x9 (i 0) (Cert.Spec.colHead d) (i 1) (Cert.Spec.colIn d))

end Cert.RefRead

end
-- ==== Proof.RefSpec.lean ====
import proofs.«406353_j58076547776991_3_alg».proof.Proof.RefHeads
import proofs.«406353_j58076547776991_3_alg».proof.Proof.RefTail
import proofs.«406353_j58076547776991_3_alg».proof.Proof.Gen.ReferenceIdeal.Read
import proofs.«406353_j58076547776991_3_alg».proof.Proof.Spec

noncomputable section

namespace Cert.RefRead

open Cert.ReferenceIdeal Cert.ReferenceIdeal.Gen Cert.ReferenceIdeal.Read Idealize.ShloMosaic Idealize.ShloMosaic.ValueIdx Idealize.SL.Sem

theorem ref_whole (m : (ℓ : Loc nD τ sig) → Buf (Elt Ideal) ℓ) (c : Dev nD) :
    (Cert.ReferenceIdeal.Value.res_main_v65 (F := Ideal) m c : S4x2048x1024.Idx → EReal)
      = Cert.Spec.whole Cert.Spec.softOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [val_main_v65_eq]
  funext i
  rw [ref_out]
  unfold Cert.Spec.whole
  refine congrArg (fun A => Cert.Spec.outProj A _ _ i) (funext fun bi => funext fun h => funext fun q => funext fun j => ?_)
  unfold Cert.Spec.attnWith
  exact congrArg₂ Cert.Spec.softOut (funext fun k => ref_score _ _ _ _ _ _ _ _ bi h q k) (funext fun k => ref_v _ _ _ bi h k j)

end Cert.RefRead

end
-- ==== Proof.RefRead.lean ====
import proofs.«406353_j58076547776991_3_alg».proof.Proof.Gen.ReferenceIdeal.Run
import proofs.«406353_j58076547776991_3_alg».proof.Proof.Gen.ReferenceIdeal.Read
-- ==== Proof.LibReal.lean ====
import Mathlib.Data.EReal.Operations
import Mathlib.Algebra.BigOperators.Group.Finset.Basic

namespace Cert

def IsReal (x : EReal) : Prop := ∃ r : ℝ, x = (r : EReal)

namespace IsReal

theorem coe (r : ℝ) : IsReal (r : EReal) := ⟨r, rfl⟩

theorem zero : IsReal 0 := ⟨0, EReal.coe_zero.symm⟩

theorem one : IsReal 1 := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem sum {ι : Type*} (s : Finset ι) (f : ι → EReal) (hf : ∀ i ∈ s, IsReal (f i)) : IsReal (∑ i ∈ s, f i) := by
  classical
  induction s using Finset.induction_on with
  | empty => simpa using zero
  | insert a s ha ih =>
    rw [Finset.sum_insert ha]
    exact add (hf a (Finset.mem_insert_self a s)) (ih fun i hi => hf i (Finset.mem_insert_of_mem hi))

noncomputable def val {x : EReal} (hx : IsReal x) : ℝ := hx.choose

theorem val_spec {x : EReal} (hx : IsReal x) : x = (hx.val : EReal) := hx.choose_spec

theorem exists_fun {ι : Type*} (f : ι → EReal) (hf : ∀ i, IsReal (f i)) : ∃ g : ι → ℝ, f = fun i => (g i : EReal) :=
  ⟨fun i => (hf i).val, funext fun i => (hf i).val_spec⟩

theorem ne_top {x : EReal} (hx : IsReal x) : x ≠ ⊤ := by obtain ⟨a, rfl⟩ := hx; exact EReal.coe_ne_top a

theorem ne_bot {x : EReal} (hx : IsReal x) : x ≠ ⊥ := by obtain ⟨a, rfl⟩ := hx; exact EReal.coe_ne_bot a

theorem of_ne {x : EReal} (h1 : x ≠ ⊤) (h2 : x ≠ ⊥) : IsReal x := by
  induction x using EReal.rec with
  | bot => exact absurd rfl h2
  | coe r => exact ⟨r, rfl⟩
  | top => exact absurd rfl h1

end IsReal

end Cert
-- ==== Proof.Flash.lean ====
import proofs.«406353_j58076547776991_3_alg».proof.Proof.Spec
import proofs.«406353_j58076547776991_3_alg».proof.Proof.LibReal
import Mathlib.Data.Finset.Fold
import Mathlib.Algebra.BigOperators.Fin
import Mathlib.Algebra.Order.BigOperators.Group.Finset
import Mathlib.Analysis.Complex.Exponential

namespace Cert.Flash

open Idealize.ShloMosaic

theorem coe_sum {ι : Type*} (t : Finset ι) (f : ι → ℝ) :
    ∑ i ∈ t, (f i : EReal) = ((∑ i ∈ t, f i : ℝ) : EReal) := by
  classical
  induction t using Finset.induction_on with
  | empty => rw [Finset.sum_empty, Finset.sum_empty, EReal.coe_zero]
  | insert a t ha ih => rw [Finset.sum_insert ha, Finset.sum_insert ha, ih, EReal.coe_add]

theorem coe_max (a b : ℝ) : ((max a b : ℝ) : EReal) = max (a : EReal) (b : EReal) :=
  EReal.coe_strictMono.monotone.map_max

theorem isReal_rowMax {n : ℕ} (hn : 0 < n) (s : Fin n → EReal) (hs : ∀ k, IsReal (s k)) :
    IsReal (Spec.rowMax ⊥ s) := by
  apply IsReal.of_ne
  · apply ne_of_lt
    rw [Spec.rowMax, Finset.fold_max_lt]
    exact ⟨bot_lt_top, fun k _ => lt_top_iff_ne_top.2 (hs k).ne_top⟩
  · apply ne_of_gt
    rw [Spec.rowMax, Finset.lt_fold_max]
    exact Or.inr ⟨⟨0, hn⟩, Finset.mem_univ _, bot_lt_iff_ne_bot.2 (hs _).ne_bot⟩

theorem rowMax_halves (s : Fin 2048 → EReal) :
    Spec.rowMax ⊥ s = max (Spec.rowMax ⊥ (Spec.lo s)) (Spec.rowMax ⊥ (Spec.hi s)) := by
  apply eq_of_forall_ge_iff
  intro c
  simp only [Spec.rowMax, Finset.fold_max_le, max_le_iff, bot_le, true_and, Finset.mem_univ, forall_true_left,
    Spec.lo, Spec.hi]
  constructor
  · intro h
    exact ⟨fun k => h _, fun k => h _⟩
  · rintro ⟨h1, h2⟩ k
    by_cases hk : k.val < 1024
    · exact h1 ⟨k.val, hk⟩
    · have hk2 : k.val - 1024 < 1024 := by have := k.isLt; omega
      have e : k = ⟨k.val - 1024 + 1024, by omega⟩ := Fin.ext (by simp only []; omega)
      rw [e]
      exact h2 ⟨k.val - 1024, hk2⟩

def loR (f : Fin 2048 → ℝ) : Fin 1024 → ℝ := fun k => f ⟨k.val, by have := k.isLt; omega⟩
def hiR (f : Fin 2048 → ℝ) : Fin 1024 → ℝ := fun k => f ⟨k.val + 1024, by have := k.isLt; omega⟩

theorem lo_coe (f : Fin 2048 → ℝ) : Spec.lo (fun i => (f i : EReal)) = fun k => (loR f k : EReal) := rfl
theorem hi_coe (f : Fin 2048 → ℝ) : Spec.hi (fun i => (f i : EReal)) = fun k => (hiR f k : EReal) := rfl

theorem sum_halves (f : Fin 2048 → ℝ) : ∑ k, f k = (∑ k, loR f k) + ∑ k, hiR f k := by
  have h1 : ∀ k : Fin 1024, f (Fin.castAdd 1024 k) = loR f k := fun _ => rfl
  have h2 : ∀ k : Fin 1024, f (Fin.natAdd 1024 k) = hiR f k := fun k =>
    congrArg f (Fin.ext (by simp only [Fin.natAdd]; omega))
  refine (Fin.sum_univ_add (a := 1024) (b := 1024) f).trans ?_
  rw [Finset.sum_congr rfl fun k _ => h1 k, Finset.sum_congr rfl fun k _ => h2 k]

theorem flashStep_real {n : ℕ} (st : EReal × EReal × EReal) (sr vr : Fin n → ℝ) (m : ℝ)
    (hm : max st.1 (Spec.rowMax ⊥ fun k => (sr k : EReal)) = (m : EReal)) :
    Spec.flashStep st (fun k => (sr k : EReal)) (fun k => (vr k : EReal)) =
      ((m : EReal),
       Ideal.exp (st.1 - (m : EReal)) * st.2.1 + ((∑ k, Real.exp (sr k - m) : ℝ) : EReal),
       Ideal.exp (st.1 - (m : EReal)) * st.2.2 + ((∑ k, Real.exp (sr k - m) * vr k : ℝ) : EReal)) := by
  unfold Spec.flashStep
  rw [hm]
  simp only [← EReal.coe_sub, Ideal.exp_coe, ← EReal.coe_mul, coe_sum]

theorem softOut_real {n : ℕ} (sr vr : Fin n → ℝ) (m : ℝ)
    (hm : max ⊥ (Spec.rowMax ⊥ fun k => (sr k : EReal)) = (m : EReal))
    (hL : (∑ k, Real.exp (sr k - m)) ≠ 0) :
    Spec.softOut (fun k => (sr k : EReal)) (fun k => (vr k : EReal)) =
      ((∑ k, Real.exp (sr k - m) * (1 / ∑ k', Real.exp (sr k' - m)) * vr k : ℝ) : EReal) := by
  unfold Spec.softOut
  rw [hm]
  simp only [← EReal.coe_sub, Ideal.exp_coe, coe_sum, zero_add]
  simp only [Ideal.div_coe hL, ← EReal.coe_mul, coe_sum]

theorem rescale_sum {n : ℕ} (sr : Fin n → ℝ) (a m : ℝ) :
    Real.exp (a - m) * ∑ k, Real.exp (sr k - a) = ∑ k, Real.exp (sr k - m) := by
  rw [Finset.mul_sum]
  refine Finset.sum_congr rfl fun k _ => ?_
  rw [← Real.exp_add]
  congr 1
  ring

theorem rescale_sum_mul {n : ℕ} (sr vr : Fin n → ℝ) (a m : ℝ) :
    Real.exp (a - m) * ∑ k, Real.exp (sr k - a) * vr k = ∑ k, Real.exp (sr k - m) * vr k := by
  rw [Finset.mul_sum]
  refine Finset.sum_congr rfl fun k _ => ?_
  rw [← mul_assoc, ← Real.exp_add]
  congr 2
  ring

theorem flash_eq (s v : Fin 2048 → EReal) (hs : ∀ k, Cert.IsReal (s k)) (hv : ∀ k, Cert.IsReal (v k)) :
    Cert.Spec.flashOut s v = Cert.Spec.softOut s v := by
  obtain ⟨sr, rfl⟩ := IsReal.exists_fun s hs
  obtain ⟨vr, rfl⟩ := IsReal.exists_fun v hv

  obtain ⟨a, ha⟩ := isReal_rowMax (by norm_num) (Spec.lo fun i => (sr i : EReal)) (fun k => hs _)
  obtain ⟨b, hb⟩ := isReal_rowMax (by norm_num) (Spec.hi fun i => (sr i : EReal)) (fun k => hs _)
  have hM : Spec.rowMax ⊥ (fun i => (sr i : EReal)) = ((max a b : ℝ) : EReal) := by
    rw [rowMax_halves, ha, hb, coe_max]
  rw [lo_coe] at ha
  rw [hi_coe] at hb

  have hL : (∑ k, Real.exp (sr k - max a b)) ≠ 0 :=
    (Finset.sum_pos (fun k _ => Real.exp_pos _) ⟨⟨0, by norm_num⟩, Finset.mem_univ _⟩).ne'

  rw [softOut_real sr vr (max a b) (by rw [hM]; exact max_eq_right bot_le) hL]

  unfold Spec.flashOut
  rw [lo_coe, lo_coe, hi_coe, hi_coe]
  rw [flashStep_real (⊥, 0, 0) (loR sr) (loR vr) a (by rw [ha]; exact max_eq_right bot_le)]

  rw [flashStep_real _ (hiR sr) (hiR vr) (max a b) (by rw [hb, coe_max])]
  simp only [EReal.bot_sub, Ideal.exp_bot, mul_zero, zero_add, ← EReal.coe_sub, Ideal.exp_coe, ← EReal.coe_mul,
    ← EReal.coe_add]
  rw [rescale_sum, rescale_sum_mul]

  have hden : ∑ k, Real.exp (sr k - max a b) =
      ∑ k, Real.exp (loR sr k - max a b) + ∑ k, Real.exp (hiR sr k - max a b) :=
    sum_halves fun k => Real.exp (sr k - max a b)
  have hnum : ∑ k, Real.exp (sr k - max a b) * vr k =
      ∑ k, Real.exp (loR sr k - max a b) * loR vr k + ∑ k, Real.exp (hiR sr k - max a b) * hiR vr k :=
    sum_halves fun k => Real.exp (sr k - max a b) * vr k
  rw [← hden, ← hnum]
  rw [Ideal.div_coe hL, ← EReal.coe_mul, Finset.sum_mul]

  refine congrArg (fun x : ℝ => (x : EReal)) (Finset.sum_congr rfl fun k _ => ?_)
  ring

end Cert.Flash
-- ==== Proof.SpecEq.lean ====
import proofs.«406353_j58076547776991_3_alg».proof.Proof.Spec
import proofs.«406353_j58076547776991_3_alg».proof.Proof.LibReal
import proofs.«406353_j58076547776991_3_alg».proof.Proof.Flash

namespace Cert.SpecEq

open Idealize.ShloMosaic Idealize.ShloMosaic.ValueIdx Cert.Spec

theorem one_eq : Spec.one = ((1 : ℝ) : EReal) := by
  simp [Spec.one, Ideal.ofBits, Ideal.ieee, -EReal.coe_mul]; norm_num

theorem eighth_eq : Spec.eighth = ((1/8 : ℝ) : EReal) := by
  simp [Spec.eighth, Ideal.ofBits, Ideal.ieee, -EReal.coe_mul]; norm_num

theorem negBig_eq : Spec.negBig = ((-1000000000 : ℝ) : EReal) := by
  simp [Spec.negBig, Ideal.ofBits, Ideal.ieee, -EReal.coe_mul]; norm_num

theorem isReal_one : IsReal Spec.one := by rw [one_eq]; exact IsReal.coe _
theorem isReal_eighth : IsReal Spec.eighth := by rw [eighth_eq]; exact IsReal.coe _
theorem isReal_negBig : IsReal Spec.negBig := by rw [negBig_eq]; exact IsReal.coe _

theorem isReal_proj (x : X3) (w : W2) (b : B1) (hx : ∀ i, IsReal (x i)) (hw : ∀ i, IsReal (w i)) (hb : ∀ i, IsReal (b i))
    (bi : Fin 4) (h : Fin 16) (s : Fin 2048) (j : Fin 64) : IsReal (proj x w b bi h s j) := by
  unfold proj
  exact IsReal.add (IsReal.sum _ _ fun d _ => IsReal.mul (hx _) (hw _)) (hb _)

theorem isReal_rotHalf (t : Fin 64 → EReal) (ht : ∀ j, IsReal (t j)) (j : Fin 64) : IsReal (rotHalf t j) := by
  unfold rotHalf
  split
  · exact (ht _).neg
  · exact ht _

theorem isReal_rope (t : H4) (cs sn : CS) (ht : ∀ bi h s j, IsReal (t bi h s j)) (hcs : ∀ i, IsReal (cs i)) (hsn : ∀ i, IsReal (sn i))
    (bi : Fin 4) (h : Fin 16) (s : Fin 2048) (j : Fin 64) : IsReal (rope t cs sn bi h s j) := by
  unfold rope
  exact IsReal.add (IsReal.mul (ht bi h s j) (hcs _)) (IsReal.mul (isReal_rotHalf (t bi h s) (ht bi h s) j) (hsn _))

theorem isReal_maskBias (mask : MK) (hmask : ∀ i, IsReal (mask i)) (bi : Fin 4) (k : Fin 2048) : IsReal (maskBias mask bi k) := by
  unfold maskBias
  exact IsReal.mul (IsReal.sub isReal_one (hmask _)) isReal_negBig

theorem isReal_score (Q K : H4) (mask : MK) (hQ : ∀ bi h s j, IsReal (Q bi h s j)) (hK : ∀ bi h s j, IsReal (K bi h s j))
    (hmask : ∀ i, IsReal (mask i)) (bi : Fin 4) (h : Fin 16) (q k : Fin 2048) : IsReal (score Q K mask bi h q k) := by
  unfold score
  exact IsReal.add (IsReal.mul (IsReal.sum _ _ fun j _ => IsReal.mul (hQ bi h q j) (hK bi h k j)) isReal_eighth)
    (isReal_maskBias mask hmask bi k)

theorem whole_eq (x : Cert.Spec.X3) (cs sn : Cert.Spec.CS) (mask : Cert.Spec.MK) (qw : Cert.Spec.W2) (qb : Cert.Spec.B1)
    (kw : Cert.Spec.W2) (kb : Cert.Spec.B1) (vw : Cert.Spec.W2) (vb : Cert.Spec.B1) (ow : Cert.Spec.W2) (ob : Cert.Spec.B1)
    (hx : ∀ i, Cert.IsReal (x i)) (hcs : ∀ i, Cert.IsReal (cs i)) (hsn : ∀ i, Cert.IsReal (sn i)) (hmask : ∀ i, Cert.IsReal (mask i))
    (hqw : ∀ i, Cert.IsReal (qw i)) (hqb : ∀ i, Cert.IsReal (qb i)) (hkw : ∀ i, Cert.IsReal (kw i)) (hkb : ∀ i, Cert.IsReal (kb i))
    (hvw : ∀ i, Cert.IsReal (vw i)) (hvb : ∀ i, Cert.IsReal (vb i)) :
    Cert.Spec.whole Cert.Spec.flashOut x cs sn mask qw qb kw kb vw vb ow ob
      = Cert.Spec.whole Cert.Spec.softOut x cs sn mask qw qb kw kb vw vb ow ob := by
  funext i
  unfold whole outProj
  refine congrArg (· + _) (Finset.sum_congr rfl fun d _ => ?_)
  refine congrArg (· * _) ?_
  unfold attnWith
  exact Cert.Flash.flash_eq _ _
    (fun k => isReal_score _ _ mask (isReal_rope _ cs sn (isReal_proj x qw qb hx hqw hqb) hcs hsn)
      (isReal_rope _ cs sn (isReal_proj x kw kb hx hkw hkb) hcs hsn) hmask _ _ _ k)
    (fun k => isReal_proj x vw vb hx hvw hvb _ _ k _)

end Cert.SpecEq
-- ==== Proof.Finite.lean ====
import proofs.«406353_j58076547776991_3_alg».proof.Proof.Gen.Pre_finite_inputs
import proofs.«406353_j58076547776991_3_alg».proof.Proof.LibReal
import Idealize.ShloMosaic.Lib.ReduceAll
import Idealize.ShloMosaic.PureOps.Ideal.Laws

namespace Cert.Finite

open Idealize.ShloMosaic Cert.Pre_finite_inputs

instance : Subsingleton S_.Idx := ⟨fun a b => funext fun d => d.elim0⟩

def j0 : S_.Idx := fun a => a.elim0

theorem inf_bits : Ideal.ofBits .f32 0x7F800000#32 = (⊤ : EReal) := by simp [Ideal.ofBits, Ideal.ieee]

theorem real_of_abs_lt_top (x : EReal) (h : max x (-x) < ⊤) : IsReal x := by
  refine IsReal.of_ne ?_ ?_
  · rintro rfl
    exact absurd h (by simp)
  · rintro rfl
    exact absurd h (by simp)

theorem all_lt_top_real {S : Shape} {axes : List (Fin S.rank)} (x : FVec Ideal S .f32)
    (hb : S_.BroadcastsInDim S (![] : Fin 0 → Fin S.rank)) (hr : S.ReducesTo axes S_) (h0 : 0 < S_.numel)
    (j : S_.Idx)
    (h : Host.reduce IntOp.andi (cmpf .olt (Host.absf x) (broadcastInDim S ![] hb (constant S_ .f32 0x7F800000#32)))
          (constantI S_ 1 1#1) hr h0 j = 1#1) : ∀ i, IsReal (x i) := by
  intro i
  have e := Host.reduce_andi_all _ _ hr h0 j h i
  refine real_of_abs_lt_top (x i) ?_
  have e' : Ideal.cmp .olt (max (x i) (-(x i))) (Ideal.ofBits .f32 0x7F800000#32) = 1#1 := e
  rw [inf_bits] at e'
  by_contra hn
  have z : Ideal.cmp .olt (max (x i) (-(x i))) ⊤ = 0#1 := by
    simp only [Ideal.cmp]; rw [decide_eq_false hn]; rfl
  rw [z] at e'
  exact absurd e' (by decide)

theorem args_real
    (a0 : FVec Ideal S4x2048x1024 .f32) (a1 a2 : FVec Ideal S1x1x2048x64 .f32) (a3 : FVec Ideal S4x2048 .f32)
    (a4 : FVec Ideal S1024x1024 .f32) (a5 : FVec Ideal S1024 .f32) (a6 : FVec Ideal S1024x1024 .f32)
    (a7 : FVec Ideal S1024 .f32) (a8 : FVec Ideal S1024x1024 .f32) (a9 : FVec Ideal S1024 .f32)
    (a10 : FVec Ideal S1024x1024 .f32) (a11 : FVec Ideal S1024 .f32)
    (h : Cert.Pre_finite_inputs.fn (F := Ideal) a0 a1 a2 a3 a4 a5 a6 a7 a8 a9 a10 a11 = fun _ => 1#1) :
    (∀ i, Cert.IsReal (a0 i)) ∧ (∀ i, Cert.IsReal (a1 i)) ∧ (∀ i, Cert.IsReal (a2 i)) ∧ (∀ i, Cert.IsReal (a3 i))
      ∧ (∀ i, Cert.IsReal (a4 i)) ∧ (∀ i, Cert.IsReal (a5 i)) ∧ (∀ i, Cert.IsReal (a6 i)) ∧ (∀ i, Cert.IsReal (a7 i))
      ∧ (∀ i, Cert.IsReal (a8 i)) ∧ (∀ i, Cert.IsReal (a9 i)) ∧ (∀ i, Cert.IsReal (a10 i))
      ∧ (∀ i, Cert.IsReal (a11 i)) := by
  have e := congrFun h j0
  unfold fn fn_part1 fn_part2 fn_part3 at e
  dsimp only [andi] at e
  simp only [IntOp.andi_eq_one] at e
  obtain ⟨⟨⟨⟨⟨⟨⟨⟨⟨⟨⟨e0, e1⟩, e2⟩, e3⟩, e4⟩, e5⟩, e6⟩, e7⟩, e8⟩, e9⟩, e10⟩, e11⟩ := e
  exact ⟨all_lt_top_real a0 _ _ _ j0 e0, all_lt_top_real a1 _ _ _ j0 e1, all_lt_top_real a2 _ _ _ j0 e2,
    all_lt_top_real a3 _ _ _ j0 e3, all_lt_top_real a4 _ _ _ j0 e4, all_lt_top_real a5 _ _ _ j0 e5,
    all_lt_top_real a6 _ _ _ j0 e6, all_lt_top_real a7 _ _ _ j0 e7, all_lt_top_real a8 _ _ _ j0 e8,
    all_lt_top_real a9 _ _ _ j0 e9, all_lt_top_real a10 _ _ _ j0 e10, all_lt_top_real a11 _ _ _ j0 e11⟩

end Cert.Finite
-- ==== Proof.Claims.lean ====
import proofs.«406353_j58076547776991_3_alg».proof.Defs
import proofs.«406353_j58076547776991_3_alg».proof.Proof.Gen.Kernel
import proofs.«406353_j58076547776991_3_alg».proof.Proof.Gen.KernelIdeal
import proofs.«406353_j58076547776991_3_alg».proof.Proof.Gen.ReferenceIdeal
import proofs.«406353_j58076547776991_3_alg».proof.Proof.Gen.Pre_finite_inputs
import proofs.«406353_j58076547776991_3_alg».proof.Proof.Kept
import proofs.«406353_j58076547776991_3_alg».proof.Proof.KVal
import proofs.«406353_j58076547776991_3_alg».proof.Proof.RefSpec
import proofs.«406353_j58076547776991_3_alg».proof.Proof.RefRead
import proofs.«406353_j58076547776991_3_alg».proof.Proof.SpecEq
import proofs.«406353_j58076547776991_3_alg».proof.Proof.Finite
import Idealize.ShloMosaic.Lib.Tactic

noncomputable section

namespace Cert.Proof.Claims

open Idealize.ShloMosaic Idealize.ShloMosaic.TcCoe Idealize.ShloMosaic.Tactic Idealize.SL.Sem

/-- The idealization rewrote nothing: the word-level program and the idealized one are the same text, so at any
    number instance they run alike, and one frame proof serves both. -/
theorem run_eq {F : FTy → Type} [FloatOps F] :
    θ_run (Cert.Kernel.defs (F := F)) (onTc (τ := Cert.Kernel.τ) (Cert.Kernel.main (F := F))) =
      θ_run (Cert.KernelIdeal.defs (F := F)) (onTc (τ := Cert.KernelIdeal.τ) (Cert.KernelIdeal.main (F := F))) := by
  sl_kernel_rfl

theorem frame_k : Cert.frame_Kernel := fun m ρ _ => by
  rw [run_eq]; exact Cert.KernelIdeal.Gen.frame (F := Bits) m ρ

theorem frame_ki : Cert.frame_KernelIdeal := fun m ρ _ => Cert.KernelIdeal.Gen.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On real inputs the kernel program ends at the streaming form of the whole function and the reference at its
    soft-max form; the two forms agree there, and the memories agree on the arguments. -/
theorem algebraic : Cert.algebraic_KernelIdeal_ReferenceIdeal := by
  intro m ρ m' ρ' hpre hagree
  open Cert.KernelIdeal.Gen in
  refine ⟨fun c => Cert.Spec.whole Cert.Spec.softOut (aX m c) (aCos m c) (aSin m c) (aMask m c) (aQw m c) (aQb m c) (aKw m c) (aKb m c)
    (aVw m c) (aVb m c) (aOw m c) (aOb m c), ?_, ?_⟩
  · refine (θ_run Cert.KernelIdeal.defs _ _).mono (fun r h c => ⟨?_, Cert.KernelIdeal.Gen.kept_of m r.2.mem c (h c)⟩)
      (Cert.KernelIdeal.Gen.run_all (F := Ideal) m ρ)
    obtain ⟨r0, r1, r2, r3, r4, r5, r6, r7, r8, r9, _, _⟩ := Cert.Finite.args_real _ _ _ _ _ _ _ _ _ _ _ _ (hpre c)
    exact (h c _ (Cert.KernelIdeal.Gen.mem_uc Cert.KernelIdeal.main_v27 (by decide))).trans
      ((Cert.KernelIdeal.Gen.kernel_value m c).trans (Cert.SpecEq.whole_eq _ _ _ _ _ _ _ _ _ _ _ _ r0 r1 r2 r3 r4 r5 r6 r7 r8 r9))
  · refine (θ_run Cert.ReferenceIdeal.defs _ _).mono (fun _ h c => ⟨(h c).1.trans ((Cert.RefRead.ref_whole m' c).trans ?_), (h c).2⟩)
      (Cert.ReferenceIdeal.Value.run (F := Ideal) m' ρ')
    obtain ⟨a0, a1, a2, a3, a4, a5, a6, a7, a8, a9, a10, a11⟩ := hagree c
    rw [a0, a1, a2, a3, a4, a5, a6, a7, a8, a9, a10, a11]

theorem claim_all : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.Claims

end
-- ==== Proof.lean ====
/- Rotary multi-head self-attention by three calls (fused projections, streaming soft-max attention, output
   projection) equals the reference's plain soft-max attention on real inputs. -/
import proofs.«406353_j58076547776991_3_alg».proof.Proof.Claims

namespace Cert.Proof

theorem claim : Cert.Claim := Cert.Proof.Claims.claim_all

end Cert.Proof
